-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S30000x64 : Shape := ⟨2, ![30000, 64]⟩
abbrev S64x64 : Shape := ⟨2, ![64, 64]⟩
abbrev S64 : Shape := ⟨1, ![64]⟩
abbrev S1500000 : Shape := ⟨1, ![1500000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S30000x64 : S_.BroadcastsInDim S30000x64 (![] : Fin 0 → Fin S30000x64.rank)
  reducesTo_S30000x64_S_d0_1 : S30000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg16 : IVec S500000 32) (main_arg17 : IVec S500000 32) (main_v63 : IVec S_ 1) (main_v67 : IVec S_ 1) : IVec S_ 1 :=
  let main_v68 : IVec S_ 1 := andi main_v63 main_v67
  let main_c_26 : IVec S_ 32 := constantI S_ 32 0#32
  let main_v69 : IVec S500000 32 := broadcastInDim S500000 ![] bcast_S_S500000 main_c_26
  let main_v70 : IVec S500000 1 := cmpi .sge main_arg16 main_v69
  let main_c_27 : IVec S_ 32 := constantI S_ 32 100000#32
  let main_v71 : IVec S500000 32 := broadcastInDim S500000 ![] bcast_S_S500000 main_c_27
  let main_v72 : IVec S500000 1 := cmpi .slt main_arg16 main_v71
  let main_v73 : IVec S500000 1 := andi main_v70 main_v72
  let main_c_28 : IVec S_ 1 := constantI S_ 1 1#1
  let main_v74 : IVec S_ 1 := (fun x v => Host.reduce IntOp.andi x v reducesTo_S500000_S_d0 h_S_) main_v73 main_c_28
  let main_v75 : IVec S_ 1 := andi main_v68 main_v74
  let main_c_29 : IVec S_ 32 := constantI S_ 32 0#32
  let main_v76 : IVec S500000 32 := broadcastInDim S500000 ![] bcast_S_S500000 main_c_29
  let main_v77 : IVec S500000 1 := cmpi .sge main_arg17 main_v76
  let main_c_30 : IVec S_ 32 := constantI S_ 32 30000#32
  let main_v78 : IVec S500000 32 := broadcastInDim S500000 ![] bcast_S_S500000 main_c_30
  let main_v79 : IVec S500000 1 := cmpi .slt main_arg17 main_v78
  let main_v80 : IVec S500000 1 := andi main_v77 main_v79
  let main_c_31 : IVec S_ 1 := constantI S_ 1 1#1
  let main_v81 : IVec S_ 1 := (fun x v => Host.reduce IntOp.andi x v reducesTo_S500000_S_d0 h_S_) main_v80 main_c_31
  let main_v82 : IVec S_ 1 := andi main_v75 main_v81
  main_v82

def fn_part3 {F : FTy → Type} [FloatOps F] (main_arg11 : FVec F S64x64 .f32) (main_arg12 : FVec F S64x64 .f32) (main_arg13 : FVec F S64 .f32) (main_arg16 : IVec S500000 32) (main_arg17 : IVec S500000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg16 : IVec S500000 32) (main_arg17 : IVec S500000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg16 main_arg17 main_v48 main_v49 main_v50

def fn_part1 {F : FTy → Type} [FloatOps F] (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg16 : IVec S500000 32) (main_arg17 : IVec S500000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg16 main_arg17 main_v33

def fn {F : FTy → Type} [FloatOps F] (main_arg0 : FVec F S100000x64 .f32) (main_arg1 : FVec F S30000x64 .f32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : IVec S1500000 32) (main_arg15 : IVec S1500000 32) (main_arg16 : IVec S500000 32) (main_arg17 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S30000x64 .f32 := Host.absf main_arg1
  let main_cst_0 : FVec F S_ .f32 := constant S_ .f32 0x7F800000#32
  let main_v5 : FVec F S30000x64 .f32 := broadcastInDim S30000x64 ![] bcast_S_S30000x64 main_cst_0
  let main_v6 : IVec S30000x64 1 := cmpf .olt main_v4 main_v5
  let main_c_1 : IVec S_ 1 := constantI S_ 1 1#1
  let main_v7 : IVec S_ 1 := (fun x v => Host.reduce IntOp.andi x v reducesTo_S30000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg16 main_arg17 main_v13 main_v16
-- ==== Kernel.lean ====
abbrev S100000x64 : Shape := ⟨2, ![100000, 64]⟩
abbrev S30000x64 : Shape := ⟨2, ![30000, 64]⟩
abbrev S64x64 : Shape := ⟨2, ![64, 64]⟩
abbrev S64 : Shape := ⟨1, ![64]⟩
abbrev S1500000 : Shape := ⟨1, ![1500000]⟩
abbrev S500000 : Shape := ⟨1, ![500000]⟩
abbrev S_ : Shape := ⟨0, ![]⟩
abbrev S1500000x1 : Shape := ⟨2, ![1500000, 1]⟩
abbrev S1500000x64 : Shape := ⟨2, ![1500000, 64]⟩
abbrev S30000 : Shape := ⟨1, ![30000]⟩
abbrev S30000x1 : Shape := ⟨2, ![30000, 1]⟩
abbrev S1x64 : Shape := ⟨2, ![1, 64]⟩
abbrev S2000x64 : Shape := ⟨2, ![2000, 64]⟩
abbrev S100000 : Shape := ⟨1, ![100000]⟩
abbrev S100000x1 : Shape := ⟨2, ![100000, 1]⟩
abbrev S500000x1 : Shape := ⟨2, ![500000, 1]⟩
abbrev S1 : Shape := ⟨1, ![1]⟩
abbrev S1x1 : Shape := ⟨2, ![1, 1]⟩
abbrev S500000x64 : Shape := ⟨2, ![500000, 64]⟩
abbrev S4096x64 : Shape := ⟨2, ![4096, 64]⟩
abbrev S4096x1 : Shape := ⟨2, ![4096, 1]⟩
abbrev S4096 : Shape := ⟨1, ![4096]⟩

abbrev nBuf : Space → Nat
  | .hbm => 174
  | .vmem => 42
  | .smem => 0
  | _ => 0

abbrev hbmTy0_0 (i : Nat) : BufTy := match i % 128 with
  | 0 => ⟨S100000x64, .f32⟩
  | 1 => ⟨S30000x64, .f32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S1500000, .i32⟩
  | 15 => ⟨S1500000, .i32⟩
  | 16 => ⟨S500000, .i32⟩
  | 17 => ⟨S500000, .i32⟩
  | 18 => ⟨S_, .i32⟩
  | 19 => ⟨S1500000, .i32⟩
  | 20 => ⟨S1500000, .i1⟩
  | 21 => ⟨S_, .i32⟩
  | 22 => ⟨S1500000, .i32⟩
  | 23 => ⟨S1500000, .i32⟩
  | 24 => ⟨S1500000, .i32⟩
  | 25 => ⟨S1500000x1, .i32⟩
  | 26 => ⟨S1500000x64, .f32⟩
  | 27 => ⟨S_, .f32⟩
  | 28 => ⟨S30000x64, .f32⟩
  | 29 => ⟨S1500000x1, .i32⟩
  | 30 => ⟨S30000x64, .f32⟩
  | 31 => ⟨S_, .f32⟩
  | 32 => ⟨S1500000, .f32⟩
  | 33 => ⟨S_, .f32⟩
  | 34 => ⟨S30000, .f32⟩
  | 35 => ⟨S1500000x1, .i32⟩
  | 36 => ⟨S30000, .f32⟩
  | 37 => ⟨S_, .f32⟩
  | 38 => ⟨S30000, .f32⟩
  | 39 => ⟨S30000, .f32⟩
  | 40 => ⟨S30000x1, .f32⟩
  | 41 => ⟨S30000x64, .f32⟩
  | 42 => ⟨S30000x64, .f32⟩
  | 43 => ⟨S1x64, .f32⟩
  | 44 => ⟨S30000x64, .f32⟩
  | 45 => ⟨S_, .i32⟩
  | 46 => ⟨S1500000, .i32⟩
  | 47 => ⟨S1500000, .i1⟩
  | 48 => ⟨S_, .i32⟩
  | 49 => ⟨S1500000, .i32⟩
  | 50 => ⟨S1500000, .i32⟩
  | 51 => ⟨S1500000, .i32⟩
  | 52 => ⟨S1500000x1, .i32⟩
  | 53 => ⟨S1500000x64, .f32⟩
  | 54 => ⟨S_, .f32⟩
  | 55 => ⟨S100000x64, .f32⟩
  | 56 => ⟨S1500000x1, .i32⟩
  | 57 => ⟨S100000x64, .f32⟩
  | 58 => ⟨S_, .f32⟩
  | 59 => ⟨S1500000, .f32⟩
  | 60 => ⟨S_, .f32⟩
  | 61 => ⟨S100000, .f32⟩
  | 62 => ⟨S1500000x1, .i32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x64, .f32⟩
  | 69 => ⟨S100000x64, .f32⟩
  | 70 => ⟨S1x64, .f32⟩
  | 71 => ⟨S100000x64, .f32⟩
  | 72 => ⟨S_, .i32⟩
  | 73 => ⟨S1500000, .i32⟩
  | 74 => ⟨S1500000, .i1⟩
  | 75 => ⟨S_, .i32⟩
  | 76 => ⟨S1500000, .i32⟩
  | 77 => ⟨S1500000, .i32⟩
  | 78 => ⟨S1500000, .i32⟩
  | 79 => ⟨S1500000x1, .i32⟩
  | 80 => ⟨S1500000x64, .f32⟩
  | 81 => ⟨S_, .f32⟩
  | 82 => ⟨S30000x64, .f32⟩
  | 83 => ⟨S1500000x1, .i32⟩
  | 84 => ⟨S30000x64, .f32⟩
  | 85 => ⟨S_, .f32⟩
  | 86 => ⟨S1500000, .f32⟩
  | 87 => ⟨S_, .f32⟩
  | 88 => ⟨S30000, .f32⟩
  | 89 => ⟨S1500000x1, .i32⟩
  | 90 => ⟨S30000, .f32⟩
  | 91 => ⟨S_, .f32⟩
  | 92 => ⟨S30000, .f32⟩
  | 93 => ⟨S30000, .f32⟩
  | 94 => ⟨S30000x1, .f32⟩
  | 95 => ⟨S30000x64, .f32⟩
  | 96 => ⟨S30000x64, .f32⟩
  | 97 => ⟨S1x64, .f32⟩
  | 98 => ⟨S30000x64, .f32⟩
  | 99 => ⟨S_, .i32⟩
  | 100 => ⟨S1500000, .i32⟩
  | 101 => ⟨S1500000, .i1⟩
  | 102 => ⟨S_, .i32⟩
  | 103 => ⟨S1500000, .i32⟩
  | 104 => ⟨S1500000, .i32⟩
  | 105 => ⟨S1500000, .i32⟩
  | 106 => ⟨S1500000x1, .i32⟩
  | 107 => ⟨S1500000x64, .f32⟩
  | 108 => ⟨S_, .f32⟩
  | 109 => ⟨S100000x64, .f32⟩
  | 110 => ⟨S1500000x1, .i32⟩
  | 111 => ⟨S100000x64, .f32⟩
  | 112 => ⟨S_, .f32⟩
  | 113 => ⟨S1500000, .f32⟩
  | 114 => ⟨S_, .f32⟩
  | 115 => ⟨S100000, .f32⟩
  | 116 => ⟨S1500000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x64, .f32⟩
  | 123 => ⟨S100000x64, .f32⟩
  | 124 => ⟨S1x64, .f32⟩
  | 125 => ⟨S100000x64, .f32⟩
  | 126 => ⟨S_, .i32⟩
  | 127 => ⟨S500000, .i32⟩
  | _ => ⟨S100000x64, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S1, .i32⟩
  | 7 => ⟨S_, .i32⟩
  | 8 => ⟨S500000x1, .i32⟩
  | 9 => ⟨S500000x1, .i1⟩
  | 10 => ⟨S1x1, .i32⟩
  | 11 => ⟨S500000x1, .i32⟩
  | 12 => ⟨S500000x1, .i1⟩
  | 13 => ⟨S500000x1, .i1⟩
  | 14 => ⟨S_, .i1⟩
  | 15 => ⟨S500000, .i1⟩
  | 16 => ⟨S500000x64, .f32⟩
  | 17 => ⟨S500000x64, .i1⟩
  | 18 => ⟨S_, .f32⟩
  | 19 => ⟨S500000x64, .f32⟩
  | 20 => ⟨S500000x64, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S1, .i32⟩
  | 30 => ⟨S_, .i32⟩
  | 31 => ⟨S500000x1, .i32⟩
  | 32 => ⟨S500000x1, .i1⟩
  | 33 => ⟨S1x1, .i32⟩
  | 34 => ⟨S500000x1, .i32⟩
  | 35 => ⟨S500000x1, .i1⟩
  | 36 => ⟨S500000x1, .i1⟩
  | 37 => ⟨S_, .i1⟩
  | 38 => ⟨S500000, .i1⟩
  | 39 => ⟨S500000x64, .f32⟩
  | 40 => ⟨S500000x64, .i1⟩
  | 41 => ⟨S_, .f32⟩
  | 42 => ⟨S500000x64, .f32⟩
  | 43 => ⟨S500000x64, .f32⟩
  | 44 => ⟨S500000x1, .f32⟩
  | 45 => ⟨S500000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S4096x64, .f32⟩
  | .local _ .vmem, ⟨37, _⟩ => ⟨S4096x64, .f32⟩
  | .local _ .vmem, ⟨38, _⟩ => ⟨S4096x64, .f32⟩
  | .local _ .vmem, ⟨39, _⟩ => ⟨S4096x64, .f32⟩
  | .local _ .vmem, ⟨40, _⟩ => ⟨S4096x1, .f32⟩
  | .local _ .vmem, ⟨41, _⟩ => ⟨S4096x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_16 : Ref sig .tc := ⟨.hbm, 99, rfl⟩
abbrev main_v63 : Ref sig .tc := ⟨.hbm, 100, rfl⟩
abbrev main_v64 : Ref sig .tc := ⟨.hbm, 101, rfl⟩
abbrev main_c_17 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_19 : Ref sig .tc := ⟨.hbm, 112, rfl⟩
abbrev main_v73 : Ref sig .tc := ⟨.hbm, 113, rfl⟩
abbrev main_cst_20 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_21 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call0_c : Ref sig .tc := ⟨.hbm, 126, rfl⟩
abbrev main_call0_v0 : Ref sig .tc := ⟨.hbm, 127, rfl⟩
abbrev main_call0_v1 : Ref sig .tc := ⟨.hbm, 128, rfl⟩
abbrev main_call0_c_0 : Ref sig .tc := ⟨.hbm, 129, rfl⟩
abbrev main_call0_v2 : Ref sig .tc := ⟨.hbm, 130, rfl⟩
abbrev main_call0_v3 : Ref sig .tc := ⟨.hbm, 131, rfl⟩
abbrev main_call0_v4 : Ref sig .tc := ⟨.hbm, 132, rfl⟩
abbrev main_call0_v5 : Ref sig .tc := ⟨.hbm, 133, rfl⟩
abbrev main_call0_c_1 : Ref sig .tc := ⟨.hbm, 134, rfl⟩
abbrev main_call0_c_2 : Ref sig .tc := ⟨.hbm, 135, rfl⟩
abbrev main_call0_v6 : Ref sig .tc := ⟨.hbm, 136, rfl⟩
abbrev main_call0_v7 : Ref sig .tc := ⟨.hbm, 137, rfl⟩
abbrev main_call0_v8 : Ref sig .tc := ⟨.hbm, 138, rfl⟩
abbrev main_call0_v9 : Ref sig .tc := ⟨.hbm, 139, rfl⟩
abbrev main_call0_v10 : Ref sig .tc := ⟨.hbm, 140, rfl⟩
abbrev main_call0_v11 : Ref sig .tc := ⟨.hbm, 141, rfl⟩
abbrev main_call0_c_3 : Ref sig .tc := ⟨.hbm, 142, rfl⟩
abbrev main_call0_v12 : Ref sig .tc := ⟨.hbm, 143, rfl⟩
abbrev main_call0_v13 : Ref sig .tc := ⟨.hbm, 144, rfl⟩
abbrev main_call0_v14 : Ref sig .tc := ⟨.hbm, 145, rfl⟩
abbrev main_call0_cst : Ref sig .tc := ⟨.hbm, 146, rfl⟩
abbrev main_call0_v15 : Ref sig .tc := ⟨.hbm, 147, rfl⟩
abbrev main_v84 : Ref sig .tc := ⟨.hbm, 148, rfl⟩
abbrev main_call1_c : Ref sig .tc := ⟨.hbm, 149, rfl⟩
abbrev main_call1_v0 : Ref sig .tc := ⟨.hbm, 150, rfl⟩
abbrev main_call1_v1 : Ref sig .tc := ⟨.hbm, 151, rfl⟩
abbrev main_call1_c_0 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_v5 : Ref sig .tc := ⟨.hbm, 156, rfl⟩
abbrev main_call1_c_1 : Ref sig .tc := ⟨.hbm, 157, rfl⟩
abbrev main_call1_c_2 : Ref sig .tc := ⟨.hbm, 158, rfl⟩
abbrev main_call1_v6 : Ref sig .tc := ⟨.hbm, 159, rfl⟩
abbrev main_call1_v7 : Ref sig .tc := ⟨.hbm, 160, rfl⟩
abbrev main_call1_v8 : Ref sig .tc := ⟨.hbm, 161, rfl⟩
abbrev main_call1_v9 : Ref sig .tc := ⟨.hbm, 162, rfl⟩
abbrev main_call1_v10 : Ref sig .tc := ⟨.hbm, 163, rfl⟩
abbrev main_call1_v11 : Ref sig .tc := ⟨.hbm, 164, rfl⟩
abbrev main_call1_c_3 : Ref sig .tc := ⟨.hbm, 165, rfl⟩
abbrev main_call1_v12 : Ref sig .tc := ⟨.hbm, 166, rfl⟩
abbrev main_call1_v13 : Ref sig .tc := ⟨.hbm, 167, rfl⟩
abbrev main_call1_v14 : Ref sig .tc := ⟨.hbm, 168, rfl⟩
abbrev main_call1_cst : Ref sig .tc := ⟨.hbm, 169, rfl⟩
abbrev main_call1_v15 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![123], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S30000x64 : S_.BroadcastsInDim S30000x64 (![] : Fin 0 → Fin S30000x64.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x64_0_1 : S30000x1.BroadcastsInDim S30000x64 (![0, 1] : Fin 2 → Fin S30000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x64_0 : S500000.BroadcastsInDim S500000x64 (![0] : Fin 1 → Fin S500000x64.rank)
  bcast_S_S500000x64 : S_.BroadcastsInDim S500000x64 (![] : Fin 0 → Fin S500000x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S500000x1_S500000 : S500000x1.ShapeCasts S500000
  gather_S100000x64_S1500000x1_S1500000x64_1_0_n_n_0_1_164_wf : GatherDims.WF S100000x64 S1500000x1 S1500000x64 [1] [0] [] [0] [] 1 ![1, 64]
  scatter_S30000x64_S1500000x1_S1500000x64_1_0_0_1_wf : ScatterDims.WF S30000x64 S1500000x1 S1500000x64 [1] [0] [0] 1
  scatter_S30000_S1500000x1_S1500000_n_0_0_1_wf : ScatterDims.WF S30000 S1500000x1 S1500000 [] [0] [0] 1
  dot_S2000x64_S64x64_S2000x64_1_0_0_1_n_n_wf : DotDims.WF S2000x64 S64x64 S2000x64 [1] [0] [0] [1] [] []
  gather_S30000x64_S1500000x1_S1500000x64_1_0_n_n_0_1_164_wf : GatherDims.WF S30000x64 S1500000x1 S1500000x64 [1] [0] [] [0] [] 1 ![1, 64]
  scatter_S100000x64_S1500000x1_S1500000x64_1_0_0_1_wf : ScatterDims.WF S100000x64 S1500000x1 S1500000x64 [1] [0] [0] 1
  scatter_S100000_S1500000x1_S1500000_n_0_0_1_wf : ScatterDims.WF S100000 S1500000x1 S1500000 [] [0] [0] 1
  gather_S100000x64_S500000x1_S500000x64_1_0_n_n_0_1_164_wf : GatherDims.WF S100000x64 S500000x1 S500000x64 [1] [0] [] [0] [] 1 ![1, 64]
  gather_S30000x64_S500000x1_S500000x64_1_0_n_n_0_1_164_wf : GatherDims.WF S30000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S30000x64.size a
  hwx0_0 : ∀ i : grid0.Coords, EltTy.bits .f32 = 32 ∨ (Rect.block (s := S30000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S30000x64.size a
  hwx0_1 : ∀ i : grid0.Coords, EltTy.bits .f32 = 32 ∨ (Rect.block (s := S30000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S30000x64.size a
  hwx0_5 : ∀ i : grid0.Coords, EltTy.bits .f32 = 32 ∨ (Rect.block (s := S30000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S30000x64.size a
  hwx2_0 : ∀ i : grid2.Coords, EltTy.bits .f32 = 32 ∨ (Rect.block (s := S30000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S30000x64.size a
  hwx2_1 : ∀ i : grid2.Coords, EltTy.bits .f32 = 32 ∨ (Rect.block (s := S30000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S30000x64.size a
  hwx2_5 : ∀ i : grid2.Coords, EltTy.bits .f32 = 32 ∨ (Rect.block (s := S30000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S4096x64.size a < S500000x64.size a
  hwx4_0 : ∀ i : grid4.Coords, EltTy.bits .f32 = 32 ∨ (Rect.unit (s := S500000x64) (fun a => cc4_transform_0 i a * S4096x64.size a) (fun a => (Pipeline.Clip.of (cc4_transform_0 i a) (S4096x64.size a) (S500000x64.size a)).extent (S4096x64.size a)) fun a => Pipeline.Clip.inb (Pipeline.Clip.ok_of (hstart4_0 i a))).WholeWords (EltTy.packing .f32)
  hwxs4_0 : ∀ i : grid4.Coords, EltTy.bits .f32 = 32 ∨ (Rect.unit (s := S4096x64) (fun _ => 0) (fun a => (Pipeline.Clip.of (cc4_transform_0 i a) (S4096x64.size a) (S500000x64.size a)).extent (S4096x64.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S4096x64.size a < S500000x64.size a
  hwx4_1 : ∀ i : grid4.Coords, EltTy.bits .f32 = 32 ∨ (Rect.unit (s := S500000x64) (fun a => cc4_transform_1 i a * S4096x64.size a) (fun a => (Pipeline.Clip.of (cc4_transform_1 i a) (S4096x64.size a) (S500000x64.size a)).extent (S4096x64.size a)) fun a => Pipeline.Clip.inb (Pipeline.Clip.ok_of (hstart4_1 i a))).WholeWords (EltTy.packing .f32)
  hwxs4_1 : ∀ i : grid4.Coords, EltTy.bits .f32 = 32 ∨ (Rect.unit (s := S4096x64) (fun _ => 0) (fun a => (Pipeline.Clip.of (cc4_transform_1 i a) (S4096x64.size a) (S500000x64.size a)).extent (S4096x64.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S4096x1.size a < S500000x1.size a
  hwx4_2 : ∀ i : grid4.Coords, EltTy.bits .f32 = 32 ∨ (Rect.unit (s := S500000x1) (fun a => cc4_transform_2 i a * S4096x1.size a) (fun a => (Pipeline.Clip.of (cc4_transform_2 i a) (S4096x1.size a) (S500000x1.size a)).extent (S4096x1.size a)) fun a => Pipeline.Clip.inb (Pipeline.Clip.ok_of (hstart4_2 i a))).WholeWords (EltTy.packing .f32)
  hwxs4_2 : ∀ i : grid4.Coords, EltTy.bits .f32 = 32 ∨ (Rect.unit (s := S4096x1) (fun _ => 0) (fun a => (Pipeline.Clip.of (cc4_transform_2 i a) (S4096x1.size a) (S500000x1.size a)).extent (S4096x1.size a)) fun a => (Nat.zero_add _).trans_le (Pipeline.Clip.extent_le (Pipeline.Clip.ok_of (hstart4_2 i a)))).WholeWords (EltTy.packing .f32)

variable [Facts₀]

def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S30000x64_S1500000x1_S1500000x64_1_0_0_1 : ScatterDims S30000x64 S1500000x1 S1500000x64 where
  updateWindowDims := [1]
  insertedWindowDims := [0]
  scatterDimsToOperandDims := [0]
  indexVectorDim := 1
  wf := scatter_S30000x64_S1500000x1_S1500000x64_1_0_0_1_wf
def scatter_S30000_S1500000x1_S1500000_n_0_0_1 : ScatterDims S30000 S1500000x1 S1500000 where
  updateWindowDims := []
  insertedWindowDims := [0]
  scatterDimsToOperandDims := [0]
  indexVectorDim := 1
  wf := scatter_S30000_S1500000x1_S1500000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S30000x64_S1500000x1_S1500000x64_1_0_n_n_0_1_164 : GatherDims S30000x64 S1500000x1 S1500000x64 where
  offsetDims := [1]
  collapsedSliceDims := [0]
  operandBatchingDims := []
  startIndicesBatchingDims := []
  startIndexMap := [0]
  indexVectorDim := 1
  sliceSizes := ![1, 64]
  wf := gather_S30000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S30000x64_S500000x1_S500000x64_1_0_n_n_0_1_164 : GatherDims S30000x64 S500000x1 S500000x64 where
  offsetDims := [1]
  collapsedSliceDims := [0]
  operandBatchingDims := []
  startIndicesBatchingDims := []
  startIndexMap := [0]
  indexVectorDim := 1
  sliceSizes := ![1, 64]
  wf := gather_S30000x64_S500000x1_S500000x64_1_0_n_n_0_1_164_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpecClip (Memref.whole main_v84) S4096x64.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_v85) S4096x64.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v86) S4096x1.size cc4_transform_2 reads4_2 true false 2 stage4_2 sem4_2
    hrank4 hreads4_2 hstart4_2 nbuf4_2 (Memref.isWhole_whole _) hwx4_2 hwxs4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S30000x64 : Shape := ⟨2, ![30000, 64]⟩
abbrev S64x64 : Shape := ⟨2, ![64, 64]⟩
abbrev S64 : Shape := ⟨1, ![64]⟩
abbrev S1500000 : Shape := ⟨1, ![1500000]⟩
abbrev S500000 : Shape := ⟨1, ![500000]⟩
abbrev S_ : Shape := ⟨0, ![]⟩
abbrev S1500000x1 : Shape := ⟨2, ![1500000, 1]⟩
abbrev S1500000x64 : Shape := ⟨2, ![1500000, 64]⟩
abbrev S30000x1 : Shape := ⟨2, ![30000, 1]⟩
abbrev S1x64 : Shape := ⟨2, ![1, 64]⟩
abbrev S100000x1 : Shape := ⟨2, ![100000, 1]⟩
abbrev S500000x1 : Shape := ⟨2, ![500000, 1]⟩
abbrev S500000x64 : Shape := ⟨2, ![500000, 64]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S30000x64, .f32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S1500000, .i32⟩
  | 15 => ⟨S1500000, .i32⟩
  | 16 => ⟨S500000, .i32⟩
  | 17 => ⟨S500000, .i32⟩
  | 18 => ⟨S_, .i32⟩
  | 19 => ⟨S1500000, .i32⟩
  | 20 => ⟨S1500000, .i1⟩
  | 21 => ⟨S_, .i32⟩
  | 22 => ⟨S1500000, .i32⟩
  | 23 => ⟨S1500000, .i32⟩
  | 24 => ⟨S1500000, .i32⟩
  | 25 => ⟨S1500000x1, .i32⟩
  | 26 => ⟨S1500000x64, .f32⟩
  | 27 => ⟨S_, .f32⟩
  | 28 => ⟨S30000x64, .f32⟩
  | 29 => ⟨S1500000x1, .i32⟩
  | 30 => ⟨S30000x64, .f32⟩
  | 31 => ⟨S_, .f32⟩
  | 32 => ⟨S1500000x1, .f32⟩
  | 33 => ⟨S_, .f32⟩
  | 34 => ⟨S30000x1, .f32⟩
  | 35 => ⟨S1500000x1, .i32⟩
  | 36 => ⟨S30000x1, .f32⟩
  | 37 => ⟨S_, .f32⟩
  | 38 => ⟨S30000x1, .f32⟩
  | 39 => ⟨S30000x1, .f32⟩
  | 40 => ⟨S30000x64, .f32⟩
  | 41 => ⟨S30000x64, .f32⟩
  | 42 => ⟨S30000x64, .f32⟩
  | 43 => ⟨S30000x64, .f32⟩
  | 44 => ⟨S30000x64, .f32⟩
  | 45 => ⟨S1x64, .f32⟩
  | 46 => ⟨S30000x64, .f32⟩
  | 47 => ⟨S30000x64, .f32⟩
  | 48 => ⟨S_, .f32⟩
  | 49 => ⟨S30000x64, .f32⟩
  | 50 => ⟨S30000x64, .f32⟩
  | 51 => ⟨S_, .i32⟩
  | 52 => ⟨S1500000, .i32⟩
  | 53 => ⟨S1500000, .i1⟩
  | 54 => ⟨S_, .i32⟩
  | 55 => ⟨S1500000, .i32⟩
  | 56 => ⟨S1500000, .i32⟩
  | 57 => ⟨S1500000, .i32⟩
  | 58 => ⟨S1500000x1, .i32⟩
  | 59 => ⟨S1500000x64, .f32⟩
  | 60 => ⟨S_, .f32⟩
  | 61 => ⟨S100000x64, .f32⟩
  | 62 => ⟨S1500000x1, .i32⟩
  | 63 => ⟨S100000x64, .f32⟩
  | 64 => ⟨S_, .f32⟩
  | 65 => ⟨S1500000x1, .f32⟩
  | 66 => ⟨S_, .f32⟩
  | 67 => ⟨S100000x1, .f32⟩
  | 68 => ⟨S1500000x1, .i32⟩
  | 69 => ⟨S100000x1, .f32⟩
  | 70 => ⟨S_, .f32⟩
  | 71 => ⟨S100000x1, .f32⟩
  | 72 => ⟨S100000x1, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S_, .i32⟩
  | 85 => ⟨S1500000, .i32⟩
  | 86 => ⟨S1500000, .i1⟩
  | 87 => ⟨S_, .i32⟩
  | 88 => ⟨S1500000, .i32⟩
  | 89 => ⟨S1500000, .i32⟩
  | 90 => ⟨S1500000, .i32⟩
  | 91 => ⟨S1500000x1, .i32⟩
  | 92 => ⟨S1500000x64, .f32⟩
  | 93 => ⟨S_, .f32⟩
  | 94 => ⟨S30000x64, .f32⟩
  | 95 => ⟨S1500000x1, .i32⟩
  | 96 => ⟨S30000x64, .f32⟩
  | 97 => ⟨S_, .f32⟩
  | 98 => ⟨S1500000x1, .f32⟩
  | 99 => ⟨S_, .f32⟩
  | 100 => ⟨S30000x1, .f32⟩
  | 101 => ⟨S1500000x1, .i32⟩
  | 102 => ⟨S30000x1, .f32⟩
  | 103 => ⟨S_, .f32⟩
  | 104 => ⟨S30000x1, .f32⟩
  | 105 => ⟨S30000x1, .f32⟩
  | 106 => ⟨S30000x64, .f32⟩
  | 107 => ⟨S30000x64, .f32⟩
  | 108 => ⟨S30000x64, .f32⟩
  | 109 => ⟨S30000x64, .f32⟩
  | 110 => ⟨S30000x64, .f32⟩
  | 111 => ⟨S1x64, .f32⟩
  | 112 => ⟨S30000x64, .f32⟩
  | 113 => ⟨S30000x64, .f32⟩
  | 114 => ⟨S_, .i32⟩
  | 115 => ⟨S1500000, .i32⟩
  | 116 => ⟨S1500000, .i1⟩
  | 117 => ⟨S_, .i32⟩
  | 118 => ⟨S1500000, .i32⟩
  | 119 => ⟨S1500000, .i32⟩
  | 120 => ⟨S1500000, .i32⟩
  | 121 => ⟨S1500000x1, .i32⟩
  | 122 => ⟨S1500000x64, .f32⟩
  | 123 => ⟨S_, .f32⟩
  | 124 => ⟨S100000x64, .f32⟩
  | 125 => ⟨S1500000x1, .i32⟩
  | 126 => ⟨S100000x64, .f32⟩
  | 127 => ⟨S_, .f32⟩
  | _ => ⟨S100000x64, .f32⟩

abbrev hbmTy0_1 (i : Nat) : BufTy := match i % 128 with
  | 0 => ⟨S1500000x1, .f32⟩
  | 1 => ⟨S_, .f32⟩
  | 2 => ⟨S100000x1, .f32⟩
  | 3 => ⟨S1500000x1, .i32⟩
  | 4 => ⟨S100000x1, .f32⟩
  | 5 => ⟨S_, .f32⟩
  | 6 => ⟨S100000x1, .f32⟩
  | 7 => ⟨S100000x1, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x64, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x64, .f32⟩
  | 34 => ⟨S500000x64, .f32⟩
  | 35 => ⟨S_, .f32⟩
  | 36 => ⟨S500000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call0_cst : Ref sig .tc := ⟨.hbm, 48, rfl⟩
abbrev main_call0_v0 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call1_cst : Ref sig .tc := ⟨.hbm, 81, rfl⟩
abbrev main_call1_v0 : Ref sig .tc := ⟨.hbm, 82, rfl⟩
abbrev main_v49 : Ref sig .tc := ⟨.hbm, 83, rfl⟩
abbrev main_c_10 : Ref sig .tc := ⟨.hbm, 84, rfl⟩
abbrev main_v50 : Ref sig .tc := ⟨.hbm, 85, rfl⟩
abbrev main_v51 : Ref sig .tc := ⟨.hbm, 86, rfl⟩
abbrev main_c_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_cst_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_16 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_19 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_21 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_22 : Ref sig .tc := ⟨.hbm, 144, rfl⟩
abbrev main_v98 : Ref sig .tc := ⟨.hbm, 145, rfl⟩
abbrev main_v99 : Ref sig .tc := ⟨.hbm, 146, rfl⟩
abbrev main_c_23 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_24 : Ref sig .tc := ⟨.hbm, 153, rfl⟩
abbrev main_v105 : Ref sig .tc := ⟨.hbm, 154, rfl⟩
abbrev main_v106 : Ref sig .tc := ⟨.hbm, 155, rfl⟩
abbrev main_c_25 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_26 : Ref sig .tc := ⟨.hbm, 163, rfl⟩
abbrev main_v113 : Ref sig .tc := ⟨.hbm, 164, rfl⟩

abbrev nD : Nat := 1
abbrev τ : Topo := Topo.v7x

variable {F : FTy → Type} [FloatOps F]

class Facts₀ : Prop where
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S30000x64 : S_.BroadcastsInDim S30000x64 (![] : Fin 0 → Fin S30000x64.rank)
  bcast_S_S1500000x1 : S_.BroadcastsInDim S1500000x1 (![] : Fin 0 → Fin S1500000x1.rank)
  bcast_S_S30000x1 : S_.BroadcastsInDim S30000x1 (![] : Fin 0 → Fin S30000x1.rank)
  bcast_S30000x1_S30000x64_0_1 : S30000x1.BroadcastsInDim S30000x64 (![0, 1] : Fin 2 → Fin S30000x64.rank)
  bcast_S64_S1x64_1 : S64.BroadcastsInDim S1x64 (![1] : Fin 1 → Fin S1x64.rank)
  bcast_S1x64_S30000x64_0_1 : S1x64.BroadcastsInDim S30000x64 (![0, 1] : Fin 2 → Fin S30000x64.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  gather_S100000x64_S1500000x1_S1500000x64_1_0_n_n_0_1_164_wf : GatherDims.WF S100000x64 S1500000x1 S1500000x64 [1] [0] [] [0] [] 1 ![1, 64]
  scatter_S30000x64_S1500000x1_S1500000x64_1_0_0_1_wf : ScatterDims.WF S30000x64 S1500000x1 S1500000x64 [1] [0] [0] 1
  scatter_S30000x1_S1500000x1_S1500000x1_1_0_0_1_wf : ScatterDims.WF S30000x1 S1500000x1 S1500000x1 [1] [0] [0] 1
  dot_S30000x64_S64x64_S30000x64_1_0_0_1_n_n_wf : DotDims.WF S30000x64 S64x64 S30000x64 [1] [0] [0] [1] [] []
  gather_S30000x64_S1500000x1_S1500000x64_1_0_n_n_0_1_164_wf : GatherDims.WF S30000x64 S1500000x1 S1500000x64 [1] [0] [] [0] [] 1 ![1, 64]
  scatter_S100000x64_S1500000x1_S1500000x64_1_0_0_1_wf : ScatterDims.WF S100000x64 S1500000x1 S1500000x64 [1] [0] [0] 1
  scatter_S100000x1_S1500000x1_S1500000x1_1_0_0_1_wf : ScatterDims.WF S100000x1 S1500000x1 S1500000x1 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  gather_S30000x64_S500000x1_S500000x64_1_0_n_n_0_1_164_wf : GatherDims.WF S30000x64 S500000x1 S500000x64 [1] [0] [] [0] [] 1 ![1, 64]

variable [Facts₀]

def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S30000x64_S1500000x1_S1500000x64_1_0_0_1 : ScatterDims S30000x64 S1500000x1 S1500000x64 where
  updateWindowDims := [1]
  insertedWindowDims := [0]
  scatterDimsToOperandDims := [0]
  indexVectorDim := 1
  wf := scatter_S30000x64_S1500000x1_S1500000x64_1_0_0_1_wf
def scatter_S30000x1_S1500000x1_S1500000x1_1_0_0_1 : ScatterDims S30000x1 S1500000x1 S1500000x1 where
  updateWindowDims := [1]
  insertedWindowDims := [0]
  scatterDimsToOperandDims := [0]
  indexVectorDim := 1
  wf := scatter_S30000x1_S1500000x1_S1500000x1_1_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf
def gather_S30000x64_S1500000x1_S1500000x64_1_0_n_n_0_1_164 : GatherDims S30000x64 S1500000x1 S1500000x64 where
  offsetDims := [1]
  collapsedSliceDims := [0]
  operandBatchingDims := []
  startIndicesBatchingDims := []
  startIndexMap := [0]
  indexVectorDim := 1
  sliceSizes := ![1, 64]
  wf := gather_S30000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def scatter_S100000x1_S1500000x1_S1500000x1_1_0_0_1 : ScatterDims S100000x1 S1500000x1 S1500000x1 where
  updateWindowDims := [1]
  insertedWindowDims := [0]
  scatterDimsToOperandDims := [0]
  indexVectorDim := 1
  wf := scatter_S100000x1_S1500000x1_S1500000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S30000x64_S500000x1_S500000x64_1_0_n_n_0_1_164 : GatherDims S30000x64 S500000x1 S500000x64 where
  offsetDims := [1]
  collapsedSliceDims := [0]
  operandBatchingDims := []
  startIndicesBatchingDims := []
  startIndexMap := [0]
  indexVectorDim := 1
  sliceSizes := ![1, 64]
  wf := gather_S30000x64_S500000x1_S500000x64_1_0_n_n_0_1_164_wf

class Facts : Prop extends Facts₀ where

variable [Facts]
-- ==== Proof.K.Sage0.lean ====
import proofs.«421618_j42769284334197_1_alg».proof.Proof.Gen.Kernel.Launch
import proofs.«421618_j42769284334197_1_alg».proof.Proof.Gen.Kernel.Skeleton
import proofs.«421618_j42769284334197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S2000x64 := Rect.unit (s := S2000x64) ![0, 0] S2000x64.size inb_S2000x64_S2000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_5 (x0 x1 : Vec F S2000x64 .f32) (x2 x3 : Vec F S64x64 .f32) (x4 : Vec F S1x64 .f32) : Vec F S2000x64 .f32 :=
  View.canon [⟨rA0, k0_pay1 (View.ld x0 rA0) (View.ld x2 rW0) (View.ld x1 rA0) (View.ld x3 rW0) (View.ld x4 rB0)⟩]

theorem cover0_5 (p0 : Vec F S2000x64 .f32) (y : S2000x64.Idx) :
    ∃ pc ∈ ([⟨rA0, p0⟩] : List (View.Piece (Elt F) S2000x64 .f32)), y ∈ pc.1.set :=
  View.cover_of_tiled [⟨rA0, p0⟩] S2000x64.size (by rfl) y

set_option maxHeartbeats 1000000 in

theorem sound_kernel0 (c : Dev nD) (E : Set ℕ) (i : grid0.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__sage_combine_kernel i arg1 harg1 arg2 harg2 arg3 harg3 arg4 harg4 arg5 harg5 arg6 harg6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  change _ ⊢ wp frame (wpE (defs₀ (F := F)) Variants.none c none) Set.univ (bodyAt0 t) _
  unfold bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe HΦ Ho H0 H1 H2 H3 H4 H5

end Cert.Kernel.Fr

end
-- ==== Proof.K.Sage1.lean ====
import proofs.«421618_j42769284334197_1_alg».proof.Proof.Gen.Kernel.Launch
import proofs.«421618_j42769284334197_1_alg».proof.Proof.Gen.Kernel.Skeleton
import proofs.«421618_j42769284334197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S2000x64 := Rect.unit (s := S2000x64) ![0, 0] S2000x64.size inb_S2000x64_S2000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_5 (x0 x1 : Vec F S2000x64 .f32) (x2 x3 : Vec F S64x64 .f32) (x4 : Vec F S1x64 .f32) : Vec F S2000x64 .f32 :=
  View.canon [⟨rA1, k1_pay1 (View.ld x0 rA1) (View.ld x2 rW1) (View.ld x1 rA1) (View.ld x3 rW1) (View.ld x4 rB1)⟩]

theorem cover1_5 (p0 : Vec F S2000x64 .f32) (y : S2000x64.Idx) :
    ∃ pc ∈ ([⟨rA1, p0⟩] : List (View.Piece (Elt F) S2000x64 .f32)), y ∈ pc.1.set :=
  View.cover_of_tiled [⟨rA1, p0⟩] S2000x64.size (by rfl) y

set_option maxHeartbeats 1000000 in

theorem sound_kernel1 (c : Dev nD) (E : Set ℕ) (i : grid1.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__sage_combine_kernel i arg1 harg1 arg2 harg2 arg3 harg3 arg4 harg4 arg5 harg5 arg6 harg6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  change _ ⊢ wp frame (wpE (defs₀ (F := F)) Variants.none c none) Set.univ (bodyAt1 t) _
  unfold bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe HΦ Ho H0 H1 H2 H3 H4 H5

end Cert.Kernel.Fr

end
-- ==== Proof.K.Sage2.lean ====
import proofs.«421618_j42769284334197_1_alg».proof.Proof.Gen.Kernel.Launch
import proofs.«421618_j42769284334197_1_alg».proof.Proof.Gen.Kernel.Skeleton
import proofs.«421618_j42769284334197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S2000x64 := Rect.unit (s := S2000x64) ![0, 0] S2000x64.size inb_S2000x64_S2000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

def out2_5 (x0 x1 : Vec F S2000x64 .f32) (x2 x3 : Vec F S64x64 .f32) (x4 : Vec F S1x64 .f32) : Vec F S2000x64 .f32 :=
  View.canon [⟨rA2, k2_pay1 (View.ld x0 rA2) (View.ld x2 rW2) (View.ld x1 rA2) (View.ld x3 rW2) (View.ld x4 rB2)⟩]

theorem cover2_5 (p0 : Vec F S2000x64 .f32) (y : S2000x64.Idx) :
    ∃ pc ∈ ([⟨rA2, p0⟩] : List (View.Piece (Elt F) S2000x64 .f32)), y ∈ pc.1.set :=
  View.cover_of_tiled [⟨rA2, p0⟩] S2000x64.size (by rfl) y

set_option maxHeartbeats 1000000 in

theorem sound_kernel2 (c : Dev nD) (E : Set ℕ) (i : grid2.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__sage_combine_kernel i arg1 harg1 arg2 harg2 arg3 harg3 arg4 harg4 arg5 harg5 arg6 harg6) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  change _ ⊢ wp frame (wpE (defs₀ (F := F)) Variants.none c none) Set.univ (bodyAt2 t) _
  unfold bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe HΦ Ho H0 H1 H2 H3 H4 H5

end Cert.Kernel.Fr

end
-- ==== Proof.K.Sage3.lean ====
import proofs.«421618_j42769284334197_1_alg».proof.Proof.Gen.Kernel.Launch
import proofs.«421618_j42769284334197_1_alg».proof.Proof.Gen.Kernel.Skeleton
import proofs.«421618_j42769284334197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S2000x64 := Rect.unit (s := S2000x64) ![0, 0] S2000x64.size inb_S2000x64_S2000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

def out3_5 (x0 x1 : Vec F S2000x64 .f32) (x2 x3 : Vec F S64x64 .f32) (x4 : Vec F S1x64 .f32) : Vec F S2000x64 .f32 :=
  View.canon [⟨rA3, k3_pay1 (View.ld x0 rA3) (View.ld x2 rW3) (View.ld x1 rA3) (View.ld x3 rW3) (View.ld x4 rB3)⟩]

theorem cover3_5 (p0 : Vec F S2000x64 .f32) (y : S2000x64.Idx) :
    ∃ pc ∈ ([⟨rA3, p0⟩] : List (View.Piece (Elt F) S2000x64 .f32)), y ∈ pc.1.set :=
  View.cover_of_tiled [⟨rA3, p0⟩] S2000x64.size (by rfl) y

set_option maxHeartbeats 1000000 in

theorem sound_kernel3 (c : Dev nD) (E : Set ℕ) (i : grid3.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__sage_combine_kernel i arg1 harg1 arg2 harg2 arg3 harg3 arg4 harg4 arg5 harg5 arg6 harg6) K := by
  simp only [cc3__sage_combine_kernel_eq_skeleton]; unfold cc3__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  change _ ⊢ wp frame (wpE (defs₀ (F := F)) Variants.none c none) Set.univ (bodyAt3 t) _
  unfold bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe HΦ Ho H0 H1 H2 H3 H4 H5

end Cert.Kernel.Fr

end
-- ==== Proof.K.Dot4.lean ====
import proofs.«421618_j42769284334197_1_alg».proof.Proof.Gen.Kernel.Launch
import proofs.«421618_j42769284334197_1_alg».proof.Proof.Gen.Kernel.Skeleton
import proofs.«421618_j42769284334197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rI4 : Rect S4096x64 := Rect.unit (s := S4096x64) ![0, 0] S4096x64.size inb_S4096x64_S4096x64_0_0
abbrev rO4 : Rect S4096x1 := Rect.unit (s := S4096x1) ![0, 0] S4096x1.size inb_S4096x1_S4096x1_0_0

def out4_2 (x0 : Vec F S4096x64 .f32) (x1 : Vec F S4096x64 .f32) : Vec F S4096x1 .f32 :=
  View.canon [⟨rO4, k4_pay1 (View.ld x0 rI4) (View.ld x1 rI4)⟩]

theorem cover4_2 (p0 : Vec F S4096x1 .f32) (y : S4096x1.Idx) :
    ∃ pc ∈ ([⟨rO4, p0⟩] : List (View.Piece (Elt F) S4096x1 .f32)), y ∈ pc.1.set :=
  View.cover_of_tiled [⟨rO4, p0⟩] S4096x1.size (by rfl) y

set_option maxHeartbeats 1000000 in

theorem sound_kernel4 (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S4096x1 .f32) (harg3 : arg3.IsWhole)
    (x0 : Vec F S4096x64 .f32) (x1 : Vec F S4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E
          (cc4__classify_reduce_kernel i arg1 harg1 arg2 harg2 arg3 harg3) K := by
  simp only [cc4__classify_reduce_kernel_eq_skeleton]; unfold cc4__classify_reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def ibuf4_0 (c : Dev nD) (t : Fin cfg4.N) : Vec F S4096x64 .f32 :=
  win4_0.fill (grid4.coords t) (fun _ => Scalar.ofBits .f32 0#32) (iblk4 V c 0 t)
def ibuf4_1 (c : Dev nD) (t : Fin cfg4.N) : Vec F S4096x64 .f32 :=
  win4_1.fill (grid4.coords t) (fun _ => Scalar.ofBits .f32 0#32) (iblk4 V c 1 t)

def dat4 (c : Dev nD) : Dat τ (Elt F) Unit ℕ (UR sig nD τ) ℕ cfg4 c where
  A w := V c (Pipeline.arrRef spec4 w)
  after w t := match w with
    | ⟨0, _⟩ => ibuf4_0 V c t
    | ⟨1, _⟩ => ibuf4_1 V c t
    | ⟨2, _⟩ => out4_2 (ibuf4_0 V c t) (ibuf4_1 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = ibuf4_0 V c t := by dsimp only [dat4]
theorem after4_1 (c : Dev nD) (t : Fin cfg4.N) : (dat4 V c).after 1 t = ibuf4_1 V c t := by dsimp only [dat4]
theorem after4_2 (c : Dev nD) (t : Fin cfg4.N) : (dat4 V c).after 2 t = out4_2 (ibuf4_0 V c t) (ibuf4_1 V c t) := by
  dsimp only [dat4]

theorem before4_0 (c : Dev nD) (t : Fin cfg4.N) (d) :
    (dat4 V c).before 0 t d = win4_0.fill (grid4.coords t) d (iblk4 V c 0 t) := by
  unfold Dat.before; rw [if_pos (fetch4_0 t)]; rfl
theorem before4_1 (c : Dev nD) (t : Fin cfg4.N) (d) :
    (dat4 V c).before 1 t d = win4_1.fill (grid4.coords t) d (iblk4 V c 1 t) := by
  unfold Dat.before; rw [if_pos (fetch4_1 t)]; rfl

def fgt4 : Fin 3 → Bool := fun w => w.val == 2

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ X, owns (c : Thread nD τ) (st4_2 t) fullShare X))

def bodyPost4 (c : Dev nD) (t : Fin cfg4.N) : sProp 𝕄 :=
  iprop((dat4 V c).Φ t.succ ∗ (dat4 V c).owesAt () t.succ
    ∗ (∃ d, owns (c : Thread nD τ) (st4_0 t) fullShare ((cfg4.win 0).fill (cfg4.grid.coords t) d ((cfg4.win 0).cut (cfg4.grid.coords t) ((dat4 V c).after 0 t))))
    ∗ (∃ d, owns (c : Thread nD τ) (st4_1 t) fullShare ((cfg4.win 1).fill (cfg4.grid.coords t) d ((cfg4.win 1).cut (cfg4.grid.coords t) ((dat4 V c).after 1 t))))
    ∗ (∃ X, owns (c : Thread nD τ) (st4_2 t) fullShare X))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩, ⟨%X2, H2⟩⟩
  rw [before4_0 V c t d0, before4_1 V c t d1]
  iapply (sound_kernel4 c Set.univ _ _ _ _ _ _ _ (win4_0.fill (grid4.coords t) d0 (iblk4 V c 0 t)) (win4_1.fill (grid4.coords t) d1 (iblk4 V c 1 t)) _)
  iframe H0 H1
  isplitl [H2]; · iexists _; iexact H2
  iintro ⟨H0, H1, H2⟩
  iframe HΦ Ho
  have hx : win4_0.cut (grid4.coords t) (ibuf4_0 V c t) = iblk4 V c 0 t := win4_0.cut_fill _ _ _
  have hy : win4_1.cut (grid4.coords t) (ibuf4_1 V c t) = iblk4 V c 1 t := win4_1.cut_fill _ _ _
  isplitl [H0]
  · iexists d0
    change _ ⊢ owns (c : Thread nD τ) (st4_0 t) fullShare (win4_0.fill (grid4.coords t) d0 (win4_0.cut (grid4.coords t) (ibuf4_0 V c t)))
    rw [hx]; try iexact H0
  isplitl [H1]
  · iexists d1
    change _ ⊢ owns (c : Thread nD τ) (st4_1 t) fullShare (win4_1.fill (grid4.coords t) d1 (win4_1.cut (grid4.coords t) (ibuf4_1 V c t)))
    rw [hy]; try iexact H1
  iexists _; iexact H2

theorem body_obligation4 (c : Dev nD) :
    BodyObligationLoose (dat4 (F := F) V c) (defs₀ (F := F)) Variants.none () Set.univ fgt4 := fun t => by
  rw [bigSep_W4, bigSep_W4]
  exact sound_body4 V c t

end Cert.Kernel.Fr

end
-- ==== Proof.K.RunData.lean ====
import proofs.«421618_j42769284334197_1_alg».proof.Proof.Gen.Kernel.Regions
import proofs.«421618_j42769284334197_1_alg».proof.Proof.K.Sage0
import proofs.«421618_j42769284334197_1_alg».proof.Proof.K.Sage1
import proofs.«421618_j42769284334197_1_alg».proof.Proof.K.Sage2
import proofs.«421618_j42769284334197_1_alg».proof.Proof.K.Sage3
import proofs.«421618_j42769284334197_1_alg».proof.Proof.K.Dot4
import Idealize.ShloMosaic.Lib.Pipeline.RegionsLoop
import Idealize.ShloMosaic.Lib.Pipeline.FrameSuffix

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 : (c : Dev nD) → (b : Ref sig .tc) → Buf (Elt F) ((c : Thread nD τ).loc b) := fun c b => V1 m c b

def o2 (c : Dev nD) : Buf (Elt F) ((c : Thread nD τ).loc main_v20) := (dat0 (E0 m) c).arrAt 5 cfg0.N

def outs2 : Outs (F := F) := fun _ r c => Function.update (V0 m c) main_v20 (o2 m c) r

abbrev E1 : (c : Dev nD) → (b : Ref sig .tc) → Buf (Elt F) ((c : Thread nD τ).loc b) := fun c b => V3 m (outs2 m) c b
def o4 (c : Dev nD) : Buf (Elt F) ((c : Thread nD τ).loc main_v41) := (dat1 (E1 m) c).arrAt 5 cfg1.N
def outs4 : Outs (F := F) := fun J r c => match J with
  | 2 => outs2 m 2 r c
  | _ => Function.update (V0 m c) main_v41 (o4 m c) r

abbrev E2 : (c : Dev nD) → (b : Ref sig .tc) → Buf (Elt F) ((c : Thread nD τ).loc b) := fun c b => V5 m (outs4 m) c b
def o6 (c : Dev nD) : Buf (Elt F) ((c : Thread nD τ).loc main_v62) := (dat2 (E2 m) c).arrAt 5 cfg2.N
def outs6 : Outs (F := F) := fun J r c => match J with
  | 2 => outs2 m 2 r c
  | 4 => outs4 m 4 r c
  | _ => Function.update (V0 m c) main_v62 (o6 m c) r

abbrev E3 : (c : Dev nD) → (b : Ref sig .tc) → Buf (Elt F) ((c : Thread nD τ).loc b) := fun c b => V7 m (outs6 m) c b
def o8 (c : Dev nD) : Buf (Elt F) ((c : Thread nD τ).loc main_v83) := (dat3 (E3 m) c).arrAt 5 cfg3.N

def outs8 : Outs (F := F) := fun J r c => match J with
  | 2 => outs2 m 2 r c
  | 4 => outs4 m 4 r c
  | 6 => outs6 m 6 r c
  | _ => Function.update (V0 m c) main_v83 (o8 m c) r

abbrev E4 : (c : Dev nD) → (b : Ref sig .tc) → Buf (Elt F) ((c : Thread nD τ).loc b) := fun c b => V10 m (outs8 m) c b

theorem outs2_2 (c : Dev nD) : outs2 m 2 main_v20 c = o2 m c := by
  show Function.update (V0 m c) main_v20 (o2 m c) main_v20 = _; exact Function.update_self ..
theorem outs4_4 (c : Dev nD) : outs4 m 4 main_v41 c = o4 m c := by
  show Function.update (V0 m c) main_v41 (o4 m c) main_v41 = _; exact Function.update_self ..
theorem outs6_6 (c : Dev nD) : outs6 m 6 main_v62 c = o6 m c := by
  show Function.update (V0 m c) main_v62 (o6 m c) main_v62 = _; exact Function.update_self ..
theorem outs8_8 (c : Dev nD) : outs8 m 8 main_v83 c = o8 m c := by
  show Function.update (V0 m c) main_v83 (o8 m c) main_v83 = _; exact Function.update_self ..

theorem outs4_2 (r : Ref sig .tc) (c : Dev nD) : outs4 m 2 r c = outs2 m 2 r c := rfl
theorem outs6_2 (r : Ref sig .tc) (c : Dev nD) : outs6 m 2 r c = outs2 m 2 r c := rfl
theorem outs6_4 (r : Ref sig .tc) (c : Dev nD) : outs6 m 4 r c = outs4 m 4 r c := rfl
theorem outs8_2 (r : Ref sig .tc) (c : Dev nD) : outs8 m 2 r c = outs2 m 2 r c := rfl
theorem outs8_4 (r : Ref sig .tc) (c : Dev nD) : outs8 m 4 r c = outs4 m 4 r c := rfl
theorem outs8_6 (r : Ref sig .tc) (c : Dev nD) : outs8 m 6 r c = outs6 m 6 r c := rfl

theorem out_self0 (outs : Outs (F := F)) (c : Dev nD) : V2 m outs c main_v20 = outs 2 main_v20 c := by
  simp only [V2, Function.update_self]
theorem out_self1 (outs : Outs (F := F)) (c : Dev nD) : V4 m outs c main_v41 = outs 4 main_v41 c := by
  simp only [V4, Function.update_self]
theorem out_self2 (outs : Outs (F := F)) (c : Dev nD) : V6 m outs c main_v62 = outs 6 main_v62 c := by
  simp only [V6, Function.update_self]
theorem out_self3 (outs : Outs (F := F)) (c : Dev nD) : V8 m outs c main_v83 = outs 8 main_v83 c := by
  simp only [V8, Function.update_self]

theorem stage0 (c : Dev nD) (r : Ref sig .tc) : V1 m c r = V1 m c r := rfl
theorem stage1 (c : Dev nD) (r : Ref sig .tc) : V3 m (outs2 m) c r = V3 m (outs4 m) c r := rfl
theorem stage2 (c : Dev nD) (r : Ref sig .tc) : V5 m (outs4 m) c r = V5 m (outs6 m) c r := rfl
theorem stage3 (c : Dev nD) (r : Ref sig .tc) : V7 m (outs6 m) c r = V7 m (outs8 m) c r := rfl

theorem o2_def (c : Dev nD) : o2 m c = (dat0 (E0 m) c).arrAt 5 cfg0.N := rfl
theorem o4_def (c : Dev nD) : o4 m c = (dat1 (E1 m) c).arrAt 5 cfg1.N := rfl
theorem o6_def (c : Dev nD) : o6 m c = (dat2 (E2 m) c).arrAt 5 cfg2.N := rfl
theorem o8_def (c : Dev nD) : o8 m c = (dat3 (E3 m) c).arrAt 5 cfg3.N := rfl

variable (fg : Fin 3 → Bool)

def rdats : (p : Fin 5) → (c : Dev nD) → RDat τ (Elt F) Unit ℕ (UR sig nD τ) ℕ (Pipeline.pin (pcfgs (F := F)) adm p) c
  | ⟨0, _⟩ => fun c => (dat0 (E0 m) c).toR
  | ⟨1, _⟩ => fun c => (dat1 (E1 m) c).toR
  | ⟨2, _⟩ => fun c => (dat2 (E2 m) c).toR
  | ⟨3, _⟩ => fun c => (dat3 (E3 m) c).toR
  | ⟨4, _⟩ => fun c => (dat4 (E4 m) c).toRForget fg

def pdatsD : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c

theorem hin_of {gr W : Nat} (win : Fin W → Pipeline.WinSpec sig gr) (c : Dev nD) (Q : sProp 𝕄) :
    iprop((∃ r, prngReg c r) ∗ Q ∗ Pipeline.scopedRest win c) ⊢ (Pipeline.ΦA win c : sProp 𝕄) := by
  unfold Pipeline.ΦA
  iintro ⟨Hp, -, Hr⟩
  iframe Hr Hp

theorem hout_of {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  iframe Hp Hr
  iempintro

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

theorem hentry_of (p : Fin 5) (hw : Pipeline.WinFacts (Pipeline.pin (pcfgs (F := F)) adm p).spec)
    (harr : ∀ w, ((Pipeline.pin (pcfgs (F := F)) adm p).spec w).arr.IsWhole) (c : Dev nD)
    (V : Valuation τ sig (Elt F))
    (hshare : ∀ w, (rdats m fg p c).share w = fullShare)
    (hA : ∀ w, (rdats m fg p c).A w = V (Pipeline.arrRef (Pipeline.pin (pcfgs (F := F)) adm p).spec w))
    (hK : (pcfgs (F := F) p).pre.K = 0)
    (hrec : (rdats m fg p c).recorded 0 = Set.univ) (howed : (rdats m fg p c).owed 0 = 0) (P Q : sProp 𝕄) :
    iprop((StableHlo.held (c : Thread nD τ) (Pipeline.ucRefs τ sig) V ∗ Rst c) ∗ P ∗ Q)
      ⊢ |={Set.univ}=> iprop((rdats m fg p c).arrays (rdats m fg p c).A
        ∗ Pipeline.prefHeld (pcfgs (F := F) p).pre c (fun _ => fullShare) (adm p).1
        ∗ (rdats m fg p c).owesAt () 0 ∗ (∃ r, prngReg c r)
        ∗ Pipeline.unscopedRest (Ix := Unit) (Name := ℕ) (U := UR sig nD τ) (Lvl := ℕ) (Pipeline.pin (pcfgs (F := F)) adm p).spec c (fun b => V b)) := by
  have hsplit := Pipeline.RDat.arrays_of_unscopedBufs (p := p) (pcfgs (F := F)) adm (rdats m fg) hw harr c hshare (fun b => V b) hA
  rw [Pipeline.unscopedBufs_held] at hsplit
  iintro ⟨⟨Hub, Hp, HO⟩, -, -⟩
  ihave H := hsplit $$ Hub
  icases H with ⟨Ha, Hrest⟩
  imodintro
  iframe Ha Hp Hrest
  isplitr
  · unfold Pipeline.prefHeld
    haveI : IsEmpty (Fin (pcfgs (F := F) p).pre.K) := by rw [hK]; infer_instance
    rw [Finset.univ_eq_empty, BI.bigSep_empty]; iempintro
  unfold Pipeline.RDat.owesAt Pipeline.owesWithin
  icases HO with ⟨%W, HO⟩; iexists W; isplitr; · ipureintro; rw [RDat.bound, hrec]; exact fun _ _ => Or.inl trivial
  rw [howed]; iexact HO

theorem hexit_of (p : Fin 5) (hw : Pipeline.WinFacts (Pipeline.pin (pcfgs (F := F)) adm p).spec)
    (harr : ∀ w, ((Pipeline.pin (pcfgs (F := F)) adm p).spec w).arr.IsWhole) (c : Dev nD) (V V' : Valuation τ sig (Elt F))
    (hR : rdats m fg p c = (pdatsD m p c).toR) (hshare : ∀ w, (pdatsD m p c).share w = fullShare)
    (hF : ∀ w, (pdatsD m p c).arrAt w (Pipeline.pin (pcfgs (F := F)) adm p).N = V' (Pipeline.arrRef (Pipeline.pin (pcfgs (F := F)) adm p).spec w))
    (hrest : ∀ b, b ∉ Finset.univ.image (Pipeline.arrRef (Pipeline.pin (pcfgs (F := F)) adm p).spec) → V' b = V b)
    (howed : (pdatsD m p c).toR.owed (Fin.last _) = 0) :
    iprop((rdats m fg p c).arraysAt (Pipeline.pin (pcfgs (F := F)) adm p).N
        ∗ (rdats m fg p c).owesAt () (Fin.last (Pipeline.pin (pcfgs (F := F)) adm p).N) ∗ (∃ r, prngReg c r)
        ∗ Pipeline.unscopedRest (Ix := Unit) (Name := ℕ) (U := UR sig nD τ) (Lvl := ℕ) (Pipeline.pin (pcfgs (F := F)) adm p).spec c (fun b => V b))
      ⊢ |={Set.univ}=> iprop(StableHlo.held (c : Thread nD τ) (Pipeline.ucRefs τ sig) V' ∗ Rst c) := by
  have hjoin := Pipeline.unscopedBufs_of_arrays (p := p) (pcfgs (F := F)) adm (Ix := Unit) (Name := ℕ) (U := UR sig nD τ) (Lvl := ℕ)
    hw harr c (pdatsD m) hshare (fun b => V b) (fun b => V' b) ((pdatsD m p c).arrAt · (Pipeline.pin (pcfgs (F := F)) adm p).N) hF hrest
  rw [Pipeline.unscopedBufs_held] at hjoin
  rw [hR]
  refine (sep_mono (Entails.of_eq ((pdatsD m p c).toR_arraysAt_eq _)) .rfl).trans ?_
  iintro ⟨Ha, HO, HY, Hrest⟩
  imodintro
  isplitl [Ha Hrest]
  · iapply hjoin
    iframe Ha Hrest
  isplitl [HY]; · iexact HY
  unfold Pipeline.RDat.owesAt Pipeline.owesWithin
  icases HO with ⟨%W, -, HO⟩; iexists W; rw [howed]; iexact HO

attribute [irreducible] o2 o4 o6 o8

end Cert.Kernel.Fr

end
-- ==== Proof.K.Reg0.lean ====
import proofs.«421618_j42769284334197_1_alg».proof.Proof.K.RunData

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF0 (c : Dev nD) (w : Fin cfg0.W) : (dat0 (E0 m) c).arrAt w cfg0.N = V2 m (outs2 m) c (Pipeline.arrRef spec0 w) := by
  match w with
  | ⟨5, _⟩ => exact (o2_def m c).symm.trans ((out_self0 m (outs2 m) c).trans (outs2_2 m c)).symm
  | ⟨0, _⟩ | ⟨1, _⟩ | ⟨2, _⟩ | ⟨3, _⟩ | ⟨4, _⟩ =>
    exact ((dat0 (E0 m) c).arrAt_in _ rfl _).trans ((A_eq0 (E0 m) c _).trans ((stage0 m c _).trans (V2_of m (outs2 m) c _ (by decide +revert)).symm))
theorem hrest0 (c : Dev nD) : ∀ b, b ∉ Finset.univ.image (Pipeline.arrRef spec0) → V2 m (outs2 m) c b = V1 m c b :=
  fun b hb => (V2_of m (outs2 m) c b fun hmem =>
    hb (Finset.mem_image.mpr ⟨5, Finset.mem_univ _, (List.mem_singleton.mp hmem).symm⟩)).trans (stage0 m c b).symm

def R0 : Pipeline.RDat.RegionSeg (pcfgs (F := F)) adm (rdats m fg) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose.toR
  hwaits := Pipeline.RDat.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs2 m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := hentry_of m fg (p := 0) launch0.win launch0.arr_whole c _ ((pdatsD m 0 c).share_full fun _ => rfl) (fun _ => rfl) rfl rfl rfl _ _
  hin c := hin_of spec0 c _
  hout c := hout_of spec0 c
  hexit c := hexit_of m fg (p := 0) launch0.win launch0.arr_whole c _ _ rfl ((pdatsD m 0 c).share_full fun _ => rfl) (hF0 m c) (hrest0 m c) rfl

end Cert.Kernel.Fr

end
-- ==== Proof.K.Reg1.lean ====
import proofs.«421618_j42769284334197_1_alg».proof.Proof.K.RunData

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF1 (c : Dev nD) (w : Fin cfg1.W) : (dat1 (E1 m) c).arrAt w cfg1.N = V4 m (outs4 m) c (Pipeline.arrRef spec1 w) := by
  match w with
  | ⟨5, _⟩ => exact (o4_def m c).symm.trans ((out_self1 m (outs4 m) c).trans (outs4_4 m c)).symm
  | ⟨0, _⟩ | ⟨1, _⟩ | ⟨2, _⟩ | ⟨3, _⟩ | ⟨4, _⟩ =>
    exact ((dat1 (E1 m) c).arrAt_in _ rfl _).trans ((A_eq1 (E1 m) c _).trans ((stage1 m c _).trans (V4_of m (outs4 m) c _ (by decide +revert)).symm))
theorem hrest1 (c : Dev nD) : ∀ b, b ∉ Finset.univ.image (Pipeline.arrRef spec1) → V4 m (outs4 m) c b = V3 m (outs2 m) c b :=
  fun b hb => (V4_of m (outs4 m) c b fun hmem =>
    hb (Finset.mem_image.mpr ⟨5, Finset.mem_univ _, (List.mem_singleton.mp hmem).symm⟩)).trans (stage1 m c b).symm

def R1 : Pipeline.RDat.RegionSeg (pcfgs (F := F)) adm (rdats m fg) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose.toR
  hwaits := Pipeline.RDat.hwaits_of_owed_zero _ _ _ _ L lv 1 fun _ _ => rfl
  pre c := iprop(StableHlo.held (c : Thread nD τ) (Pipeline.ucRefs τ sig) (V3 m (outs2 m) c) ∗ Rst c)
  post c := iprop(StableHlo.held (c : Thread nD τ) (Pipeline.ucRefs τ sig) (V4 m (outs4 m) c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := hentry_of m fg (p := 1) launch1.win launch1.arr_whole c _ ((pdatsD m 1 c).share_full fun _ => rfl) (fun _ => rfl) rfl rfl rfl _ _
  hin c := hin_of spec1 c _
  hout c := hout_of spec1 c
  hexit c := hexit_of m fg (p := 1) launch1.win launch1.arr_whole c _ _ rfl ((pdatsD m 1 c).share_full fun _ => rfl) (hF1 m c) (hrest1 m c) rfl

end Cert.Kernel.Fr

end
-- ==== Proof.K.Reg2.lean ====
import proofs.«421618_j42769284334197_1_alg».proof.Proof.K.RunData

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF2 (c : Dev nD) (w : Fin cfg2.W) : (dat2 (E2 m) c).arrAt w cfg2.N = V6 m (outs6 m) c (Pipeline.arrRef spec2 w) := by
  match w with
  | ⟨5, _⟩ => exact (o6_def m c).symm.trans ((out_self2 m (outs6 m) c).trans (outs6_6 m c)).symm
  | ⟨0, _⟩ | ⟨1, _⟩ | ⟨2, _⟩ | ⟨3, _⟩ | ⟨4, _⟩ =>
    exact ((dat2 (E2 m) c).arrAt_in _ rfl _).trans ((A_eq2 (E2 m) c _).trans ((stage2 m c _).trans (V6_of m (outs6 m) c _ (by decide +revert)).symm))
theorem hrest2 (c : Dev nD) : ∀ b, b ∉ Finset.univ.image (Pipeline.arrRef spec2) → V6 m (outs6 m) c b = V5 m (outs4 m) c b :=
  fun b hb => (V6_of m (outs6 m) c b fun hmem =>
    hb (Finset.mem_image.mpr ⟨5, Finset.mem_univ _, (List.mem_singleton.mp hmem).symm⟩)).trans (stage2 m c b).symm

def R2 : Pipeline.RDat.RegionSeg (pcfgs (F := F)) adm (rdats m fg) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose.toR
  hwaits := Pipeline.RDat.hwaits_of_owed_zero _ _ _ _ L lv 2 fun _ _ => rfl
  pre c := iprop(StableHlo.held (c : Thread nD τ) (Pipeline.ucRefs τ sig) (V5 m (outs4 m) c) ∗ Rst c)
  post c := iprop(StableHlo.held (c : Thread nD τ) (Pipeline.ucRefs τ sig) (V6 m (outs6 m) c) ∗ Rst c)
  X c := iprop(∃ r, prngReg c r)
  Y c := iprop(∃ r, prngReg c r)
  Z c := Pipeline.unscopedRest (Ix := Unit) (Name := ℕ) (U := UR sig nD τ) (Lvl := ℕ) spec2 c (E2 m c)
  hentry c := hentry_of m fg (p := 2) launch2.win launch2.arr_whole c _ ((pdatsD m 2 c).share_full fun _ => rfl) (fun _ => rfl) rfl rfl rfl _ _
  hin c := hin_of spec2 c _
  hout c := hout_of spec2 c
  hexit c := hexit_of m fg (p := 2) launch2.win launch2.arr_whole c _ _ rfl ((pdatsD m 2 c).share_full fun _ => rfl) (hF2 m c) (hrest2 m c) rfl

end Cert.Kernel.Fr

end
-- ==== Proof.K.Reg3.lean ====
import proofs.«421618_j42769284334197_1_alg».proof.Proof.K.RunData

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF3 (c : Dev nD) (w : Fin cfg3.W) : (dat3 (E3 m) c).arrAt w cfg3.N = V8 m (outs8 m) c (Pipeline.arrRef spec3 w) := by
  match w with
  | ⟨5, _⟩ => exact (o8_def m c).symm.trans ((out_self3 m (outs8 m) c).trans (outs8_8 m c)).symm
  | ⟨0, _⟩ | ⟨1, _⟩ | ⟨2, _⟩ | ⟨3, _⟩ | ⟨4, _⟩ =>
    exact ((dat3 (E3 m) c).arrAt_in _ rfl _).trans ((A_eq3 (E3 m) c _).trans ((stage3 m c _).trans (V8_of m (outs8 m) c _ (by decide +revert)).symm))
theorem hrest3 (c : Dev nD) : ∀ b, b ∉ Finset.univ.image (Pipeline.arrRef spec3) → V8 m (outs8 m) c b = V7 m (outs6 m) c b :=
  fun b hb => (V8_of m (outs8 m) c b fun hmem =>
    hb (Finset.mem_image.mpr ⟨5, Finset.mem_univ _, (List.mem_singleton.mp hmem).symm⟩)).trans (stage3 m c b).symm

def R3 : Pipeline.RDat.RegionSeg (pcfgs (F := F)) adm (rdats m fg) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose.toR
  hwaits := Pipeline.RDat.hwaits_of_owed_zero _ _ _ _ L lv 3 fun _ _ => rfl
  pre c := iprop(StableHlo.held (c : Thread nD τ) (Pipeline.ucRefs τ sig) (V7 m (outs6 m) c) ∗ Rst c)
  post c := iprop(StableHlo.held (c : Thread nD τ) (Pipeline.ucRefs τ sig) (V8 m (outs8 m) c) ∗ Rst c)
  X c := iprop(∃ r, prngReg c r)
  Y c := iprop(∃ r, prngReg c r)
  Z c := Pipeline.unscopedRest (Ix := Unit) (Name := ℕ) (U := UR sig nD τ) (Lvl := ℕ) spec3 c (E3 m c)
  hentry c := hentry_of m fg (p := 3) launch3.win launch3.arr_whole c _ ((pdatsD m 3 c).share_full fun _ => rfl) (fun _ => rfl) rfl rfl rfl _ _
  hin c := hin_of spec3 c _
  hout c := hout_of spec3 c
  hexit c := hexit_of m fg (p := 3) launch3.win launch3.arr_whole c _ _ rfl ((pdatsD m 3 c).share_full fun _ => rfl) (hF3 m c) (hrest3 m c) rfl

end Cert.Kernel.Fr

end
-- ==== Proof.K.Reg4.lean ====
import proofs.«421618_j42769284334197_1_alg».proof.Proof.K.RunData

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

abbrev upd4 (c : Dev nD) (o : Buf (Elt F) ((c : Thread nD τ).loc main_v86)) : Valuation τ sig (Elt F) :=
  Function.update (V10 m (outs8 m) c) main_v86 o

abbrev Left4 (c : Dev nD) (o : Buf (Elt F) ((c : Thread nD τ).loc main_v86)) : Prop :=
  ((dat4 (E4 m) c).toRForget fg).ArrAt 2 cfg4.N o

def F4 (c : Dev nD) (o : Buf (Elt F) ((c : Thread nD τ).loc main_v86)) :
    (w : Fin cfg4.W) → Buf (Elt F) ((cfg4.win w).arr.view.loc (c : Thread nD τ))
  | ⟨0, _⟩ => (dat4 (E4 m) c).A 0
  | ⟨1, _⟩ => (dat4 (E4 m) c).A 1
  | ⟨2, _⟩ => o

theorem hF4 (c : Dev nD) (o : Buf (Elt F) ((c : Thread nD τ).loc main_v86)) (w : Fin cfg4.W) :
    F4 m c o w = upd4 m c o (Pipeline.arrRef spec4 w) := by
  match w with
  | ⟨0, _⟩ | ⟨1, _⟩ =>
    exact (A_eq4 (E4 m) c _).trans (Function.update_of_ne (StableHlo.devRef_ne_of_ne (by decide +revert) :
      (Proc.devRef .tc (Pipeline.arrRef spec4 _) : DevRef τ sig) ≠ Proc.devRef .tc main_v86) _ _).symm
  | ⟨2, _⟩ =>
    show o = Function.update (V10 m (outs8 m) c) main_v86 o main_v86
    rw [Function.update_self]

theorem hrest4 (c : Dev nD) (o : Buf (Elt F) ((c : Thread nD τ).loc main_v86)) :
    ∀ b, b ∉ Finset.univ.image (Pipeline.arrRef spec4) → upd4 m c o b = V10 m (outs8 m) c b :=
  fun b hb => by
    have hne : (Proc.devRef .tc b : DevRef τ sig) ≠ Proc.devRef .tc main_v86 :=
      StableHlo.devRef_ne_of_ne fun e => hb (Finset.mem_image.mpr ⟨2, Finset.mem_univ _, e.symm⟩)
    simp only [upd4, Function.update_of_ne hne]

variable (hb4 : ∀ c, BodyObligationLoose (dat4 (F := F) (E4 m) c) (defs₀ (F := F)) Variants.none () Set.univ fg)
  (hfg0 : fg 0 = false) (hfg1 : fg 1 = false)

def R4 : Pipeline.RDat.RegionSeg (pcfgs (F := F)) adm (rdats m fg) () defs₀ 𝒱₀ L lv 4 where
  win := launch4.win.to₀
  block_pos := launch4.block_pos
  stage_whole := launch4.stage_whole
  K := PEmpty
  osem k := k.elim
  ho := Pipeline.OwnSemFacts.none _
  hbody c := (hb4 c).toRForget
  hwaits := Pipeline.RDat.hwaits_of_owed_zero _ _ _ _ L lv 4 fun _ _ => rfl
  pre c := iprop(StableHlo.held (c : Thread nD τ) (Pipeline.ucRefs τ sig) (V10 m (outs8 m) c) ∗ Rst c)
  post c := iprop(∃ o, ⌜Left4 m fg c o⌝ ∗ StableHlo.held (c : Thread nD τ) (Pipeline.ucRefs τ sig) (upd4 m c o) ∗ Rst c)
  X c := iprop(∃ r, prngReg c r)
  Y c := iprop(∃ r, prngReg c r)
  Z c := Pipeline.unscopedRest (Ix := Unit) (Name := ℕ) (U := UR sig nD τ) (Lvl := ℕ) spec4 c (E4 m c)
  hentry c := hentry_of m fg (p := 4) launch4.win launch4.arr_whole c _ ((pdatsD m 4 c).share_full fun _ => rfl) (fun _ => rfl) rfl rfl rfl _ _
  hin c := hin_of spec4 c _
  hout c := hout_of spec4 c
  hexit c := by
    have hjoin := fun o => Pipeline.unscopedBufs_of_arrays (p := 4) (pcfgs (F := F)) adm (Ix := Unit) (Name := ℕ) (U := UR sig nD τ) (Lvl := ℕ)
      launch4.win launch4.arr_whole c (pdatsD m) ((pdatsD m 4 c).share_full fun _ => rfl)
      (E4 m c) (fun b => upd4 m c o b) (F4 m c o) (hF4 m c o) (hrest4 m c o)
    show iprop(((dat4 (E4 m) c).toRForget fg).arraysAt cfg4.N ∗ _ ∗ _ ∗ _) ⊢ _
    unfold RDat.arraysAt
    rw [bigSep_W4]
    iintro ⟨⟨⟨%F0, %h0, H0⟩, ⟨%F1, %h1, H1⟩, ⟨%F2, %h2, H2⟩⟩, HO, HY, Hrest⟩
    have e0 : F0 = (dat4 (E4 m) c).A 0 :=
      (((dat4 (E4 m) c).toRForget_arrAt_iff hfg0 cfg4.N F0).mp h0).trans ((dat4 (E4 m) c).arrAt_in 0 rfl _)
    have e1 : F1 = (dat4 (E4 m) c).A 1 :=
      (((dat4 (E4 m) c).toRForget_arrAt_iff hfg1 cfg4.N F1).mp h1).trans ((dat4 (E4 m) c).arrAt_in 1 rfl _)
    subst e0; subst e1
    imodintro
    iexists F2
    isplitr; · ipureintro; exact h2
    isplitl [H0 H1 H2 Hrest]
    · have hj := hjoin F2
      rw [Pipeline.unscopedBufs_held] at hj
      iapply hj
      isplitl [H0 H1 H2]
      · unfold Dat.arrays
        rw [bigSep_W4]
        isplitl [H0]; · iexact H0
        isplitl [H1]; · iexact H1
        iexact H2
      iexact Hrest
    isplitl [HY]; · iexact HY
    unfold Pipeline.RDat.owesAt Pipeline.owesWithin
    icases HO with ⟨%W, -, HO⟩; iexists W; iexact HO

end Cert.Kernel.Fr

end
-- ==== Proof.K.Run.lean ====
import proofs.«421618_j42769284334197_1_alg».proof.Proof.K.Reg0
import proofs.«421618_j42769284334197_1_alg».proof.Proof.K.Reg1
import proofs.«421618_j42769284334197_1_alg».proof.Proof.K.Reg2
import proofs.«421618_j42769284334197_1_alg».proof.Proof.K.Reg3
import proofs.«421618_j42769284334197_1_alg».proof.Proof.K.Reg4

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (fg : Fin 3 → Bool)

abbrev Es : Fin 6 → Dev nD → sProp 𝕄 := fun _ c => Rst c

set_option backward.isDefEq.respectTransparency.types false in

def segLast : Pipeline.HostSeg (Ix := Unit) (Name := ℕ) (U := UR sig nD τ) (Lvl := ℕ) (pcfgs (F := F)) defs₀ 𝒱₀ L lv where
  prog := StableHlo.seq hostOps5
  pre c := iprop(∃ o, ⌜Left4 m fg c o⌝ ∗ StableHlo.held (c : Thread nD τ) (Pipeline.ucRefs τ sig) (upd4 m c o) ∗ Rst c)
  post c := iprop(∃ o, ⌜Left4 m fg c o⌝ ∗ StableHlo.held (c : Thread nD τ) (Pipeline.ucRefs τ sig) (StableHlo.after hostOps5 (upd4 m c o)) ∗ Rst c)
  run c {β} k K := by
    iintro ⟨Hk, Hbd, ⟨%o, %hP, Hh, HR⟩, Hl⟩
    have hrun := (Pipeline.HostSeg.ofOps (Name := ℕ) (U := UR sig nD τ) (pcfgs (F := F)) defs₀ 𝒱₀ L lv (Pipeline.ucRefs τ sig) hostOps5
      (fun op h => Pipeline.sub_ucRefs op ((List.forall_iff_forall_mem.mp hostOps5_sub) op h))
      (fun op h => (List.forall_iff_forall_mem.mp hostOps5_fresh) op h) (fun _ => upd4 m c o) Rst).run c k K
    dsimp only [Pipeline.HostSeg.ofOps] at hrun
    iapply hrun
    isplitl [Hk]
    · iintro ⟨Hbd, Hh, HR⟩
      iapply Hk
      iframe Hbd
      iexists o
      isplitr; · ipureintro; exact hP
      iframe Hh HR
    iframe Hbd Hh HR Hl

abbrev segsR (hb4 : ∀ c, BodyObligationLoose (dat4 (F := F) (E4 m) c) (defs₀ (F := F)) Variants.none () Set.univ fg)
    (hfg0 : fg 0 = false) (hfg1 : fg 1 = false) :
    List (Pipeline.RDat.Seg (pcfgs (F := F)) adm (rdats m fg) () defs₀ 𝒱₀ L lv) :=
  [ .host (seg0 m 𝒱₀ L lv (Es (F := F))),
    .region (R0 m fg),
    .host (seg2 m (outs2 m) 𝒱₀ L lv (Es (F := F))),
    .region (R1 m fg),
    .host (seg4 m (outs4 m) 𝒱₀ L lv (Es (F := F))),
    .region (R2 m fg),
    .host (seg6 m (outs6 m) 𝒱₀ L lv (Es (F := F))),
    .region (R3 m fg),
    .host (seg8 m (outs8 m) 𝒱₀ L lv (Es (F := F))),
    .host (seg9 m (outs8 m) 𝒱₀ L lv (Es (F := F))),
    .region (R4 m fg hb4 hfg0 hfg1),
    .host (segLast m fg) ]

abbrev Tlast (c : Dev nD) : sProp 𝕄 :=
  iprop(∃ o, ⌜Left4 m fg c o⌝ ∗ StableHlo.held (c : Thread nD τ) (Pipeline.ucRefs τ sig) (StableHlo.after hostOps5 (upd4 m c o)) ∗ ∃ r, prngReg c r)

set_option backward.isDefEq.respectTransparency.types false in

theorem run_all (hb4 : ∀ c, BodyObligationLoose (dat4 (F := F) (E4 m) c) (defs₀ (F := F)) Variants.none () Set.univ fg)
    (hfg0 : fg 0 = false) (hfg1 : fg 1 = false) :
    θ_run defs (onTc (τ := τ) (main (F := F))) ⟨m, fun _ => 0, ρ⟩ (fun r => ∀ c : Dev nD,
      ∃ o, Left4 m fg c o ∧ ∀ b ∈ Pipeline.ucRefs τ sig,
        r.2.mem (((c : Thread nD τ)).1, b) = StableHlo.after hostOps5 (upd4 m c o) b) :=
  Pipeline.RDat.θ_run_regions_kit (pcfgs (F := F)) adm (rdats m fg) () cellOf_inj emb₁ defs₀ 𝒱₀ L lv m ρ main
    (segsR m fg hb4 hfg0 hfg1)
    (fun c Q => by
      rewrite [main_chain c, Pipeline.RDat.Seg.run_eq_chain,
        show (segsR m fg hb4 hfg0 hfg1).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5 ] from rfl]
      exact .rfl)
    (by simp only [segsR, Pipeline.RDat.Seg.pipes, List.filterMap, Pipeline.RDat.Seg.pipe?]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tlast m fg)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show (iprop(∃ o, ⌜Left4 m fg c o⌝ ∗ StableHlo.held (c : Thread nD τ) (Pipeline.ucRefs τ sig) (StableHlo.after hostOps5 (upd4 m c o)) ∗ Rst c) : sProp 𝕄)
          ⊢ iprop(Tlast m fg c ∗ ∃ W, owes (c : Thread nD τ) (0 : CellTallies nD τ sig Unit) W)
        iintro ⟨%o, %hP, Hh, Hp, HO⟩
        iframe HO
        iexists o
        isplitr; · ipureintro; exact hP
        iframe Hh Hp⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ o, Left4 m fg c o ∧ ∀ b ∈ Pipeline.ucRefs τ sig,
      s.mem (((c : Thread nD τ)).1, b) = StableHlo.after hostOps5 (upd4 m c o) b)
    (hfin := fun c s' => by
      iintro ⟨⟨%o, %hP, Hh, -⟩, HSI⟩
      unfold StableHlo.held
      ihave Hr := (pointsTo_read_all (Pipeline.ucRefs τ sig) (fun b => (((c : Thread nD τ)).1, b)) (StableHlo.after hostOps5 (upd4 m c o)) s') $$ [Hh HSI]
      · isplitl [Hh] <;> iassumption
      icases Hr with ⟨%h, HSI⟩
      imodintro
      isplitr
      · ipureintro; exact ⟨o, hP, h⟩
      iexact HSI)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev argRefs : List (Ref sig .tc) := [main_arg0, main_arg1, main_arg2, main_arg3, main_arg4, main_arg5, main_arg6, main_arg7,
  main_arg8, main_arg9, main_arg10, main_arg11, main_arg12, main_arg13, main_arg14, main_arg15, main_arg16, main_arg17]

theorem arg_untouched : ∀ r ∈ argRefs, r ∉ hostOps0_W ∧ r ∉ ([main_v20] : List (Ref sig .tc)) ∧ r ∉ hostOps1_W
    ∧ r ∉ ([main_v41] : List (Ref sig .tc)) ∧ r ∉ hostOps2_W ∧ r ∉ ([main_v62] : List (Ref sig .tc)) ∧ r ∉ hostOps3_W
    ∧ r ∉ ([main_v83] : List (Ref sig .tc)) ∧ r ∉ hostOps4_W ∧ r ∉ hostOps4_1_W ∧ r ≠ main_v86 ∧ r ∉ hostOps5_W := by decide

theorem last_arg (c : Dev nD) (o : Buf (Elt F) ((c : Thread nD τ).loc main_v86)) (r : Ref sig .tc) (hr : r ∈ argRefs) :
    StableHlo.after hostOps5 (upd4 m c o) r = m ((c : Thread nD τ).loc r) := by
  obtain ⟨h1, h2, h3, h4, h5, h6, h7, h8, h9, h10, h11, h12⟩ := arg_untouched r hr
  refine (StableHlo.after_of_writes_sub hostOps5 _ hostOps5_writes h12).trans ?_
  refine (Function.update_of_ne (StableHlo.devRef_ne_of_ne h11 : (Proc.devRef .tc r : DevRef τ sig) ≠ Proc.devRef .tc main_v86) _ _).trans ?_
  exact (V10_of m (outs8 m) c r h10).trans <| (V9_of m (outs8 m) c r h9).trans <| (V8_of m (outs8 m) c r h8).trans <|
    (V7_of m (outs8 m) c r h7).trans <| (V6_of m (outs8 m) c r h6).trans <| (V5_of m (outs8 m) c r h5).trans <|
    (V4_of m (outs8 m) c r h4).trans <| (V3_of m (outs8 m) c r h3).trans <| (V2_of m (outs8 m) c r h2).trans <|
    (V1_of m c r h1).trans rfl

theorem frame_all (hb4 : ∀ c, BodyObligationLoose (dat4 (F := F) (E4 m) c) (defs₀ (F := F)) Variants.none () Set.univ fg)
    (hfg0 : fg 0 = false) (hfg1 : fg 1 = false) :
    θ_run defs (onTc (τ := τ) (main (F := F))) ⟨m, fun _ => 0, ρ⟩ (fun r => ∀ c : Dev nD,
      ∀ a ∈ argRefs, r.2.mem ((c.tc : Thread nD τ).loc a) = m ((c.tc : Thread nD τ).loc a)) :=
  (θ_run defs _ _).mono (fun r h c a ha => by
    obtain ⟨o, -, hb⟩ := h c
    have hs : ¬ (Proc.devRef .tc a : DevRef τ sig).isScoped := by
      revert a; decide
    exact (hb _ (mem_uc a hs)).trans (last_arg m c o a ha))
    (run_all m ρ fg hb4 hfg0 hfg1)

end Cert.Kernel.Fr

end
-- ==== Proof.KI.Sage0.lean ====
import proofs.«421618_j42769284334197_1_alg».proof.Proof.Gen.KernelIdeal.Launch
import proofs.«421618_j42769284334197_1_alg».proof.Proof.Gen.KernelIdeal.Skeleton
import proofs.«421618_j42769284334197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S2000x64 := Rect.unit (s := S2000x64) ![0, 0] S2000x64.size inb_S2000x64_S2000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_5 (x0 x1 : Vec F S2000x64 .f32) (x2 x3 : Vec F S64x64 .f32) (x4 : Vec F S1x64 .f32) : Vec F S2000x64 .f32 :=
  View.canon [⟨rA0, k0_pay1 (View.ld x0 rA0) (View.ld x2 rW0) (View.ld x1 rA0) (View.ld x3 rW0) (View.ld x4 rB0)⟩]

theorem cover0_5 (p0 : Vec F S2000x64 .f32) (y : S2000x64.Idx) :
    ∃ pc ∈ ([⟨rA0, p0⟩] : List (View.Piece (Elt F) S2000x64 .f32)), y ∈ pc.1.set :=
  View.cover_of_tiled [⟨rA0, p0⟩] S2000x64.size (by rfl) y

set_option maxHeartbeats 1000000 in

theorem sound_kernel0 (c : Dev nD) (E : Set ℕ) (i : grid0.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__sage_combine_kernel i arg1 harg1 arg2 harg2 arg3 harg3 arg4 harg4 arg5 harg5 arg6 harg6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  change _ ⊢ wp frame (wpE (defs₀ (F := F)) Variants.none c none) Set.univ (bodyAt0 t) _
  unfold bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe HΦ Ho H0 H1 H2 H3 H4 H5

end Cert.KernelIdeal.Fr

end
-- ==== Proof.KI.Sage1.lean ====
import proofs.«421618_j42769284334197_1_alg».proof.Proof.Gen.KernelIdeal.Launch
import proofs.«421618_j42769284334197_1_alg».proof.Proof.Gen.KernelIdeal.Skeleton
import proofs.«421618_j42769284334197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S2000x64 := Rect.unit (s := S2000x64) ![0, 0] S2000x64.size inb_S2000x64_S2000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_5 (x0 x1 : Vec F S2000x64 .f32) (x2 x3 : Vec F S64x64 .f32) (x4 : Vec F S1x64 .f32) : Vec F S2000x64 .f32 :=
  View.canon [⟨rA1, k1_pay1 (View.ld x0 rA1) (View.ld x2 rW1) (View.ld x1 rA1) (View.ld x3 rW1) (View.ld x4 rB1)⟩]

theorem cover1_5 (p0 : Vec F S2000x64 .f32) (y : S2000x64.Idx) :
    ∃ pc ∈ ([⟨rA1, p0⟩] : List (View.Piece (Elt F) S2000x64 .f32)), y ∈ pc.1.set :=
  View.cover_of_tiled [⟨rA1, p0⟩] S2000x64.size (by rfl) y

set_option maxHeartbeats 1000000 in

theorem sound_kernel1 (c : Dev nD) (E : Set ℕ) (i : grid1.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__sage_combine_kernel i arg1 harg1 arg2 harg2 arg3 harg3 arg4 harg4 arg5 harg5 arg6 harg6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  change _ ⊢ wp frame (wpE (defs₀ (F := F)) Variants.none c none) Set.univ (bodyAt1 t) _
  unfold bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe HΦ Ho H0 H1 H2 H3 H4 H5

end Cert.KernelIdeal.Fr

end
-- ==== Proof.KI.Sage2.lean ====
import proofs.«421618_j42769284334197_1_alg».proof.Proof.Gen.KernelIdeal.Launch
import proofs.«421618_j42769284334197_1_alg».proof.Proof.Gen.KernelIdeal.Skeleton
import proofs.«421618_j42769284334197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S2000x64 := Rect.unit (s := S2000x64) ![0, 0] S2000x64.size inb_S2000x64_S2000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

def out2_5 (x0 x1 : Vec F S2000x64 .f32) (x2 x3 : Vec F S64x64 .f32) (x4 : Vec F S1x64 .f32) : Vec F S2000x64 .f32 :=
  View.canon [⟨rA2, k2_pay1 (View.ld x0 rA2) (View.ld x2 rW2) (View.ld x1 rA2) (View.ld x3 rW2) (View.ld x4 rB2)⟩]

theorem cover2_5 (p0 : Vec F S2000x64 .f32) (y : S2000x64.Idx) :
    ∃ pc ∈ ([⟨rA2, p0⟩] : List (View.Piece (Elt F) S2000x64 .f32)), y ∈ pc.1.set :=
  View.cover_of_tiled [⟨rA2, p0⟩] S2000x64.size (by rfl) y

set_option maxHeartbeats 1000000 in

theorem sound_kernel2 (c : Dev nD) (E : Set ℕ) (i : grid2.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__sage_combine_kernel i arg1 harg1 arg2 harg2 arg3 harg3 arg4 harg4 arg5 harg5 arg6 harg6) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  change _ ⊢ wp frame (wpE (defs₀ (F := F)) Variants.none c none) Set.univ (bodyAt2 t) _
  unfold bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe HΦ Ho H0 H1 H2 H3 H4 H5

end Cert.KernelIdeal.Fr

end
-- ==== Proof.KI.Sage3.lean ====
import proofs.«421618_j42769284334197_1_alg».proof.Proof.Gen.KernelIdeal.Launch
import proofs.«421618_j42769284334197_1_alg».proof.Proof.Gen.KernelIdeal.Skeleton
import proofs.«421618_j42769284334197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S2000x64 := Rect.unit (s := S2000x64) ![0, 0] S2000x64.size inb_S2000x64_S2000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

def out3_5 (x0 x1 : Vec F S2000x64 .f32) (x2 x3 : Vec F S64x64 .f32) (x4 : Vec F S1x64 .f32) : Vec F S2000x64 .f32 :=
  View.canon [⟨rA3, k3_pay1 (View.ld x0 rA3) (View.ld x2 rW3) (View.ld x1 rA3) (View.ld x3 rW3) (View.ld x4 rB3)⟩]

theorem cover3_5 (p0 : Vec F S2000x64 .f32) (y : S2000x64.Idx) :
    ∃ pc ∈ ([⟨rA3, p0⟩] : List (View.Piece (Elt F) S2000x64 .f32)), y ∈ pc.1.set :=
  View.cover_of_tiled [⟨rA3, p0⟩] S2000x64.size (by rfl) y

set_option maxHeartbeats 1000000 in

theorem sound_kernel3 (c : Dev nD) (E : Set ℕ) (i : grid3.Coords)
    {arg1 arg2 arg6 : Memref sig .tc .vmem S2000x64 .f32} {arg3 arg4 : Memref sig .tc .vmem S64x64 .f32} {arg5 : Memref sig .tc .vmem S1x64 .f32}
    (harg1 : arg1.IsWhole) (harg2 : arg2.IsWhole) (harg3 : arg3.IsWhole) (harg4 : arg4.IsWhole) (harg5 : arg5.IsWhole) (harg6 : arg6.IsWhole)
    (x0 x1 : Vec F S2000x64 .f32) (x2 x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__sage_combine_kernel i arg1 harg1 arg2 harg2 arg3 harg3 arg4 harg4 arg5 harg5 arg6 harg6) K := by
  simp only [cc3__sage_combine_kernel_eq_skeleton]; unfold cc3__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  change _ ⊢ wp frame (wpE (defs₀ (F := F)) Variants.none c none) Set.univ (bodyAt3 t) _
  unfold bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe HΦ Ho H0 H1 H2 H3 H4 H5

end Cert.KernelIdeal.Fr

end
-- ==== Proof.KI.Dot4.lean ====
import proofs.«421618_j42769284334197_1_alg».proof.Proof.Gen.KernelIdeal.Launch
import proofs.«421618_j42769284334197_1_alg».proof.Proof.Gen.KernelIdeal.Skeleton
import proofs.«421618_j42769284334197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rI4 : Rect S4096x64 := Rect.unit (s := S4096x64) ![0, 0] S4096x64.size inb_S4096x64_S4096x64_0_0
abbrev rO4 : Rect S4096x1 := Rect.unit (s := S4096x1) ![0, 0] S4096x1.size inb_S4096x1_S4096x1_0_0

def out4_2 (x0 : Vec F S4096x64 .f32) (x1 : Vec F S4096x64 .f32) : Vec F S4096x1 .f32 :=
  View.canon [⟨rO4, k4_pay1 (View.ld x0 rI4) (View.ld x1 rI4)⟩]

theorem cover4_2 (p0 : Vec F S4096x1 .f32) (y : S4096x1.Idx) :
    ∃ pc ∈ ([⟨rO4, p0⟩] : List (View.Piece (Elt F) S4096x1 .f32)), y ∈ pc.1.set :=
  View.cover_of_tiled [⟨rO4, p0⟩] S4096x1.size (by rfl) y

set_option maxHeartbeats 1000000 in

theorem sound_kernel4 (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S4096x1 .f32) (harg3 : arg3.IsWhole)
    (x0 : Vec F S4096x64 .f32) (x1 : Vec F S4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E
          (cc4__classify_reduce_kernel i arg1 harg1 arg2 harg2 arg3 harg3) K := by
  simp only [cc4__classify_reduce_kernel_eq_skeleton]; unfold cc4__classify_reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def ibuf4_0 (c : Dev nD) (t : Fin cfg4.N) : Vec F S4096x64 .f32 :=
  win4_0.fill (grid4.coords t) (fun _ => Scalar.ofBits .f32 0#32) (iblk4 V c 0 t)
def ibuf4_1 (c : Dev nD) (t : Fin cfg4.N) : Vec F S4096x64 .f32 :=
  win4_1.fill (grid4.coords t) (fun _ => Scalar.ofBits .f32 0#32) (iblk4 V c 1 t)

def dat4 (c : Dev nD) : Dat τ (Elt F) Unit ℕ (UR sig nD τ) ℕ cfg4 c where
  A w := V c (Pipeline.arrRef spec4 w)
  after w t := match w with
    | ⟨0, _⟩ => ibuf4_0 V c t
    | ⟨1, _⟩ => ibuf4_1 V c t
    | ⟨2, _⟩ => out4_2 (ibuf4_0 V c t) (ibuf4_1 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = ibuf4_0 V c t := by dsimp only [dat4]
theorem after4_1 (c : Dev nD) (t : Fin cfg4.N) : (dat4 V c).after 1 t = ibuf4_1 V c t := by dsimp only [dat4]
theorem after4_2 (c : Dev nD) (t : Fin cfg4.N) : (dat4 V c).after 2 t = out4_2 (ibuf4_0 V c t) (ibuf4_1 V c t) := by
  dsimp only [dat4]

theorem before4_0 (c : Dev nD) (t : Fin cfg4.N) (d) :
    (dat4 V c).before 0 t d = win4_0.fill (grid4.coords t) d (iblk4 V c 0 t) := by
  unfold Dat.before; rw [if_pos (fetch4_0 t)]; rfl
theorem before4_1 (c : Dev nD) (t : Fin cfg4.N) (d) :
    (dat4 V c).before 1 t d = win4_1.fill (grid4.coords t) d (iblk4 V c 1 t) := by
  unfold Dat.before; rw [if_pos (fetch4_1 t)]; rfl

def fgt4 : Fin 3 → Bool := fun w => w.val == 2

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ X, owns (c : Thread nD τ) (st4_2 t) fullShare X))

def bodyPost4 (c : Dev nD) (t : Fin cfg4.N) : sProp 𝕄 :=
  iprop((dat4 V c).Φ t.succ ∗ (dat4 V c).owesAt () t.succ
    ∗ (∃ d, owns (c : Thread nD τ) (st4_0 t) fullShare ((cfg4.win 0).fill (cfg4.grid.coords t) d ((cfg4.win 0).cut (cfg4.grid.coords t) ((dat4 V c).after 0 t))))
    ∗ (∃ d, owns (c : Thread nD τ) (st4_1 t) fullShare ((cfg4.win 1).fill (cfg4.grid.coords t) d ((cfg4.win 1).cut (cfg4.grid.coords t) ((dat4 V c).after 1 t))))
    ∗ (∃ X, owns (c : Thread nD τ) (st4_2 t) fullShare X))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩, ⟨%X2, H2⟩⟩
  rw [before4_0 V c t d0, before4_1 V c t d1]
  iapply (sound_kernel4 c Set.univ _ _ _ _ _ _ _ (win4_0.fill (grid4.coords t) d0 (iblk4 V c 0 t)) (win4_1.fill (grid4.coords t) d1 (iblk4 V c 1 t)) _)
  iframe H0 H1
  isplitl [H2]; · iexists _; iexact H2
  iintro ⟨H0, H1, H2⟩
  iframe HΦ Ho
  have hx : win4_0.cut (grid4.coords t) (ibuf4_0 V c t) = iblk4 V c 0 t := win4_0.cut_fill _ _ _
  have hy : win4_1.cut (grid4.coords t) (ibuf4_1 V c t) = iblk4 V c 1 t := win4_1.cut_fill _ _ _
  isplitl [H0]
  · iexists d0
    change _ ⊢ owns (c : Thread nD τ) (st4_0 t) fullShare (win4_0.fill (grid4.coords t) d0 (win4_0.cut (grid4.coords t) (ibuf4_0 V c t)))
    rw [hx]; try iexact H0
  isplitl [H1]
  · iexists d1
    change _ ⊢ owns (c : Thread nD τ) (st4_1 t) fullShare (win4_1.fill (grid4.coords t) d1 (win4_1.cut (grid4.coords t) (ibuf4_1 V c t)))
    rw [hy]; try iexact H1
  iexists _; iexact H2

theorem body_obligation4 (c : Dev nD) :
    BodyObligationLoose (dat4 (F := F) V c) (defs₀ (F := F)) Variants.none () Set.univ fgt4 := fun t => by
  rw [bigSep_W4, bigSep_W4]
  exact sound_body4 V c t

end Cert.KernelIdeal.Fr

end
-- ==== Proof.KI.RunData.lean ====
import proofs.«421618_j42769284334197_1_alg».proof.Proof.Gen.KernelIdeal.Regions
import proofs.«421618_j42769284334197_1_alg».proof.Proof.KI.Sage0
import proofs.«421618_j42769284334197_1_alg».proof.Proof.KI.Sage1
import proofs.«421618_j42769284334197_1_alg».proof.Proof.KI.Sage2
import proofs.«421618_j42769284334197_1_alg».proof.Proof.KI.Sage3
import proofs.«421618_j42769284334197_1_alg».proof.Proof.KI.Dot4
import Idealize.ShloMosaic.Lib.Pipeline.RegionsLoop
import Idealize.ShloMosaic.Lib.Pipeline.FrameSuffix

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 : (c : Dev nD) → (b : Ref sig .tc) → Buf (Elt F) ((c : Thread nD τ).loc b) := fun c b => V1 m c b

def o2 (c : Dev nD) : Buf (Elt F) ((c : Thread nD τ).loc main_v20) := (dat0 (E0 m) c).arrAt 5 cfg0.N

def outs2 : Outs (F := F) := fun _ r c => Function.update (V0 m c) main_v20 (o2 m c) r

abbrev E1 : (c : Dev nD) → (b : Ref sig .tc) → Buf (Elt F) ((c : Thread nD τ).loc b) := fun c b => V3 m (outs2 m) c b
def o4 (c : Dev nD) : Buf (Elt F) ((c : Thread nD τ).loc main_v41) := (dat1 (E1 m) c).arrAt 5 cfg1.N
def outs4 : Outs (F := F) := fun J r c => match J with
  | 2 => outs2 m 2 r c
  | _ => Function.update (V0 m c) main_v41 (o4 m c) r

abbrev E2 : (c : Dev nD) → (b : Ref sig .tc) → Buf (Elt F) ((c : Thread nD τ).loc b) := fun c b => V5 m (outs4 m) c b
def o6 (c : Dev nD) : Buf (Elt F) ((c : Thread nD τ).loc main_v62) := (dat2 (E2 m) c).arrAt 5 cfg2.N
def outs6 : Outs (F := F) := fun J r c => match J with
  | 2 => outs2 m 2 r c
  | 4 => outs4 m 4 r c
  | _ => Function.update (V0 m c) main_v62 (o6 m c) r

abbrev E3 : (c : Dev nD) → (b : Ref sig .tc) → Buf (Elt F) ((c : Thread nD τ).loc b) := fun c b => V7 m (outs6 m) c b
def o8 (c : Dev nD) : Buf (Elt F) ((c : Thread nD τ).loc main_v83) := (dat3 (E3 m) c).arrAt 5 cfg3.N

def outs8 : Outs (F := F) := fun J r c => match J with
  | 2 => outs2 m 2 r c
  | 4 => outs4 m 4 r c
  | 6 => outs6 m 6 r c
  | _ => Function.update (V0 m c) main_v83 (o8 m c) r

abbrev E4 : (c : Dev nD) → (b : Ref sig .tc) → Buf (Elt F) ((c : Thread nD τ).loc b) := fun c b => V10 m (outs8 m) c b

theorem outs2_2 (c : Dev nD) : outs2 m 2 main_v20 c = o2 m c := by
  show Function.update (V0 m c) main_v20 (o2 m c) main_v20 = _; exact Function.update_self ..
theorem outs4_4 (c : Dev nD) : outs4 m 4 main_v41 c = o4 m c := by
  show Function.update (V0 m c) main_v41 (o4 m c) main_v41 = _; exact Function.update_self ..
theorem outs6_6 (c : Dev nD) : outs6 m 6 main_v62 c = o6 m c := by
  show Function.update (V0 m c) main_v62 (o6 m c) main_v62 = _; exact Function.update_self ..
theorem outs8_8 (c : Dev nD) : outs8 m 8 main_v83 c = o8 m c := by
  show Function.update (V0 m c) main_v83 (o8 m c) main_v83 = _; exact Function.update_self ..

theorem outs4_2 (r : Ref sig .tc) (c : Dev nD) : outs4 m 2 r c = outs2 m 2 r c := rfl
theorem outs6_2 (r : Ref sig .tc) (c : Dev nD) : outs6 m 2 r c = outs2 m 2 r c := rfl
theorem outs6_4 (r : Ref sig .tc) (c : Dev nD) : outs6 m 4 r c = outs4 m 4 r c := rfl
theorem outs8_2 (r : Ref sig .tc) (c : Dev nD) : outs8 m 2 r c = outs2 m 2 r c := rfl
theorem outs8_4 (r : Ref sig .tc) (c : Dev nD) : outs8 m 4 r c = outs4 m 4 r c := rfl
theorem outs8_6 (r : Ref sig .tc) (c : Dev nD) : outs8 m 6 r c = outs6 m 6 r c := rfl

theorem out_self0 (outs : Outs (F := F)) (c : Dev nD) : V2 m outs c main_v20 = outs 2 main_v20 c := by
  simp only [V2, Function.update_self]
theorem out_self1 (outs : Outs (F := F)) (c : Dev nD) : V4 m outs c main_v41 = outs 4 main_v41 c := by
  simp only [V4, Function.update_self]
theorem out_self2 (outs : Outs (F := F)) (c : Dev nD) : V6 m outs c main_v62 = outs 6 main_v62 c := by
  simp only [V6, Function.update_self]
theorem out_self3 (outs : Outs (F := F)) (c : Dev nD) : V8 m outs c main_v83 = outs 8 main_v83 c := by
  simp only [V8, Function.update_self]

theorem stage0 (c : Dev nD) (r : Ref sig .tc) : V1 m c r = V1 m c r := rfl
theorem stage1 (c : Dev nD) (r : Ref sig .tc) : V3 m (outs2 m) c r = V3 m (outs4 m) c r := rfl
theorem stage2 (c : Dev nD) (r : Ref sig .tc) : V5 m (outs4 m) c r = V5 m (outs6 m) c r := rfl
theorem stage3 (c : Dev nD) (r : Ref sig .tc) : V7 m (outs6 m) c r = V7 m (outs8 m) c r := rfl

theorem o2_def (c : Dev nD) : o2 m c = (dat0 (E0 m) c).arrAt 5 cfg0.N := rfl
theorem o4_def (c : Dev nD) : o4 m c = (dat1 (E1 m) c).arrAt 5 cfg1.N := rfl
theorem o6_def (c : Dev nD) : o6 m c = (dat2 (E2 m) c).arrAt 5 cfg2.N := rfl
theorem o8_def (c : Dev nD) : o8 m c = (dat3 (E3 m) c).arrAt 5 cfg3.N := rfl

variable (fg : Fin 3 → Bool)

def rdats : (p : Fin 5) → (c : Dev nD) → RDat τ (Elt F) Unit ℕ (UR sig nD τ) ℕ (Pipeline.pin (pcfgs (F := F)) adm p) c
  | ⟨0, _⟩ => fun c => (dat0 (E0 m) c).toR
  | ⟨1, _⟩ => fun c => (dat1 (E1 m) c).toR
  | ⟨2, _⟩ => fun c => (dat2 (E2 m) c).toR
  | ⟨3, _⟩ => fun c => (dat3 (E3 m) c).toR
  | ⟨4, _⟩ => fun c => (dat4 (E4 m) c).toRForget fg

def pdatsD : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c

theorem hin_of {gr W : Nat} (win : Fin W → Pipeline.WinSpec sig gr) (c : Dev nD) (Q : sProp 𝕄) :
    iprop((∃ r, prngReg c r) ∗ Q ∗ Pipeline.scopedRest win c) ⊢ (Pipeline.ΦA win c : sProp 𝕄) := by
  unfold Pipeline.ΦA
  iintro ⟨Hp, -, Hr⟩
  iframe Hr Hp

theorem hout_of {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  iframe Hp Hr
  iempintro

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

theorem hentry_of (p : Fin 5) (hw : Pipeline.WinFacts (Pipeline.pin (pcfgs (F := F)) adm p).spec)
    (harr : ∀ w, ((Pipeline.pin (pcfgs (F := F)) adm p).spec w).arr.IsWhole) (c : Dev nD)
    (V : Valuation τ sig (Elt F))
    (hshare : ∀ w, (rdats m fg p c).share w = fullShare)
    (hA : ∀ w, (rdats m fg p c).A w = V (Pipeline.arrRef (Pipeline.pin (pcfgs (F := F)) adm p).spec w))
    (hK : (pcfgs (F := F) p).pre.K = 0)
    (hrec : (rdats m fg p c).recorded 0 = Set.univ) (howed : (rdats m fg p c).owed 0 = 0) (P Q : sProp 𝕄) :
    iprop((StableHlo.held (c : Thread nD τ) (Pipeline.ucRefs τ sig) V ∗ Rst c) ∗ P ∗ Q)
      ⊢ |={Set.univ}=> iprop((rdats m fg p c).arrays (rdats m fg p c).A
        ∗ Pipeline.prefHeld (pcfgs (F := F) p).pre c (fun _ => fullShare) (adm p).1
        ∗ (rdats m fg p c).owesAt () 0 ∗ (∃ r, prngReg c r)
        ∗ Pipeline.unscopedRest (Ix := Unit) (Name := ℕ) (U := UR sig nD τ) (Lvl := ℕ) (Pipeline.pin (pcfgs (F := F)) adm p).spec c (fun b => V b)) := by
  have hsplit := Pipeline.RDat.arrays_of_unscopedBufs (p := p) (pcfgs (F := F)) adm (rdats m fg) hw harr c hshare (fun b => V b) hA
  rw [Pipeline.unscopedBufs_held] at hsplit
  iintro ⟨⟨Hub, Hp, HO⟩, -, -⟩
  ihave H := hsplit $$ Hub
  icases H with ⟨Ha, Hrest⟩
  imodintro
  iframe Ha Hp Hrest
  isplitr
  · unfold Pipeline.prefHeld
    haveI : IsEmpty (Fin (pcfgs (F := F) p).pre.K) := by rw [hK]; infer_instance
    rw [Finset.univ_eq_empty, BI.bigSep_empty]; iempintro
  unfold Pipeline.RDat.owesAt Pipeline.owesWithin
  icases HO with ⟨%W, HO⟩; iexists W; isplitr; · ipureintro; rw [RDat.bound, hrec]; exact fun _ _ => Or.inl trivial
  rw [howed]; iexact HO

theorem hexit_of (p : Fin 5) (hw : Pipeline.WinFacts (Pipeline.pin (pcfgs (F := F)) adm p).spec)
    (harr : ∀ w, ((Pipeline.pin (pcfgs (F := F)) adm p).spec w).arr.IsWhole) (c : Dev nD) (V V' : Valuation τ sig (Elt F))
    (hR : rdats m fg p c = (pdatsD m p c).toR) (hshare : ∀ w, (pdatsD m p c).share w = fullShare)
    (hF : ∀ w, (pdatsD m p c).arrAt w (Pipeline.pin (pcfgs (F := F)) adm p).N = V' (Pipeline.arrRef (Pipeline.pin (pcfgs (F := F)) adm p).spec w))
    (hrest : ∀ b, b ∉ Finset.univ.image (Pipeline.arrRef (Pipeline.pin (pcfgs (F := F)) adm p).spec) → V' b = V b)
    (howed : (pdatsD m p c).toR.owed (Fin.last _) = 0) :
    iprop((rdats m fg p c).arraysAt (Pipeline.pin (pcfgs (F := F)) adm p).N
        ∗ (rdats m fg p c).owesAt () (Fin.last (Pipeline.pin (pcfgs (F := F)) adm p).N) ∗ (∃ r, prngReg c r)
        ∗ Pipeline.unscopedRest (Ix := Unit) (Name := ℕ) (U := UR sig nD τ) (Lvl := ℕ) (Pipeline.pin (pcfgs (F := F)) adm p).spec c (fun b => V b))
      ⊢ |={Set.univ}=> iprop(StableHlo.held (c : Thread nD τ) (Pipeline.ucRefs τ sig) V' ∗ Rst c) := by
  have hjoin := Pipeline.unscopedBufs_of_arrays (p := p) (pcfgs (F := F)) adm (Ix := Unit) (Name := ℕ) (U := UR sig nD τ) (Lvl := ℕ)
    hw harr c (pdatsD m) hshare (fun b => V b) (fun b => V' b) ((pdatsD m p c).arrAt · (Pipeline.pin (pcfgs (F := F)) adm p).N) hF hrest
  rw [Pipeline.unscopedBufs_held] at hjoin
  rw [hR]
  refine (sep_mono (Entails.of_eq ((pdatsD m p c).toR_arraysAt_eq _)) .rfl).trans ?_
  iintro ⟨Ha, HO, HY, Hrest⟩
  imodintro
  isplitl [Ha Hrest]
  · iapply hjoin
    iframe Ha Hrest
  isplitl [HY]; · iexact HY
  unfold Pipeline.RDat.owesAt Pipeline.owesWithin
  icases HO with ⟨%W, -, HO⟩; iexists W; rw [howed]; iexact HO

attribute [irreducible] o2 o4 o6 o8

end Cert.KernelIdeal.Fr

end
-- ==== Proof.KI.Reg0.lean ====
import proofs.«421618_j42769284334197_1_alg».proof.Proof.KI.RunData

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF0 (c : Dev nD) (w : Fin cfg0.W) : (dat0 (E0 m) c).arrAt w cfg0.N = V2 m (outs2 m) c (Pipeline.arrRef spec0 w) := by
  match w with
  | ⟨5, _⟩ => exact (o2_def m c).symm.trans ((out_self0 m (outs2 m) c).trans (outs2_2 m c)).symm
  | ⟨0, _⟩ | ⟨1, _⟩ | ⟨2, _⟩ | ⟨3, _⟩ | ⟨4, _⟩ =>
    exact ((dat0 (E0 m) c).arrAt_in _ rfl _).trans ((A_eq0 (E0 m) c _).trans ((stage0 m c _).trans (V2_of m (outs2 m) c _ (by decide +revert)).symm))
theorem hrest0 (c : Dev nD) : ∀ b, b ∉ Finset.univ.image (Pipeline.arrRef spec0) → V2 m (outs2 m) c b = V1 m c b :=
  fun b hb => (V2_of m (outs2 m) c b fun hmem =>
    hb (Finset.mem_image.mpr ⟨5, Finset.mem_univ _, (List.mem_singleton.mp hmem).symm⟩)).trans (stage0 m c b).symm

def R0 : Pipeline.RDat.RegionSeg (pcfgs (F := F)) adm (rdats m fg) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose.toR
  hwaits := Pipeline.RDat.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs2 m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := hentry_of m fg (p := 0) launch0.win launch0.arr_whole c _ ((pdatsD m 0 c).share_full fun _ => rfl) (fun _ => rfl) rfl rfl rfl _ _
  hin c := hin_of spec0 c _
  hout c := hout_of spec0 c
  hexit c := hexit_of m fg (p := 0) launch0.win launch0.arr_whole c _ _ rfl ((pdatsD m 0 c).share_full fun _ => rfl) (hF0 m c) (hrest0 m c) rfl

end Cert.KernelIdeal.Fr

end
-- ==== Proof.KI.Reg1.lean ====
import proofs.«421618_j42769284334197_1_alg».proof.Proof.KI.RunData

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF1 (c : Dev nD) (w : Fin cfg1.W) : (dat1 (E1 m) c).arrAt w cfg1.N = V4 m (outs4 m) c (Pipeline.arrRef spec1 w) := by
  match w with
  | ⟨5, _⟩ => exact (o4_def m c).symm.trans ((out_self1 m (outs4 m) c).trans (outs4_4 m c)).symm
  | ⟨0, _⟩ | ⟨1, _⟩ | ⟨2, _⟩ | ⟨3, _⟩ | ⟨4, _⟩ =>
    exact ((dat1 (E1 m) c).arrAt_in _ rfl _).trans ((A_eq1 (E1 m) c _).trans ((stage1 m c _).trans (V4_of m (outs4 m) c _ (by decide +revert)).symm))
theorem hrest1 (c : Dev nD) : ∀ b, b ∉ Finset.univ.image (Pipeline.arrRef spec1) → V4 m (outs4 m) c b = V3 m (outs2 m) c b :=
  fun b hb => (V4_of m (outs4 m) c b fun hmem =>
    hb (Finset.mem_image.mpr ⟨5, Finset.mem_univ _, (List.mem_singleton.mp hmem).symm⟩)).trans (stage1 m c b).symm

def R1 : Pipeline.RDat.RegionSeg (pcfgs (F := F)) adm (rdats m fg) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose.toR
  hwaits := Pipeline.RDat.hwaits_of_owed_zero _ _ _ _ L lv 1 fun _ _ => rfl
  pre c := iprop(StableHlo.held (c : Thread nD τ) (Pipeline.ucRefs τ sig) (V3 m (outs2 m) c) ∗ Rst c)
  post c := iprop(StableHlo.held (c : Thread nD τ) (Pipeline.ucRefs τ sig) (V4 m (outs4 m) c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := hentry_of m fg (p := 1) launch1.win launch1.arr_whole c _ ((pdatsD m 1 c).share_full fun _ => rfl) (fun _ => rfl) rfl rfl rfl _ _
  hin c := hin_of spec1 c _
  hout c := hout_of spec1 c
  hexit c := hexit_of m fg (p := 1) launch1.win launch1.arr_whole c _ _ rfl ((pdatsD m 1 c).share_full fun _ => rfl) (hF1 m c) (hrest1 m c) rfl

end Cert.KernelIdeal.Fr

end
-- ==== Proof.KI.Reg2.lean ====
import proofs.«421618_j42769284334197_1_alg».proof.Proof.KI.RunData

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF2 (c : Dev nD) (w : Fin cfg2.W) : (dat2 (E2 m) c).arrAt w cfg2.N = V6 m (outs6 m) c (Pipeline.arrRef spec2 w) := by
  match w with
  | ⟨5, _⟩ => exact (o6_def m c).symm.trans ((out_self2 m (outs6 m) c).trans (outs6_6 m c)).symm
  | ⟨0, _⟩ | ⟨1, _⟩ | ⟨2, _⟩ | ⟨3, _⟩ | ⟨4, _⟩ =>
    exact ((dat2 (E2 m) c).arrAt_in _ rfl _).trans ((A_eq2 (E2 m) c _).trans ((stage2 m c _).trans (V6_of m (outs6 m) c _ (by decide +revert)).symm))
theorem hrest2 (c : Dev nD) : ∀ b, b ∉ Finset.univ.image (Pipeline.arrRef spec2) → V6 m (outs6 m) c b = V5 m (outs4 m) c b :=
  fun b hb => (V6_of m (outs6 m) c b fun hmem =>
    hb (Finset.mem_image.mpr ⟨5, Finset.mem_univ _, (List.mem_singleton.mp hmem).symm⟩)).trans (stage2 m c b).symm

def R2 : Pipeline.RDat.RegionSeg (pcfgs (F := F)) adm (rdats m fg) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose.toR
  hwaits := Pipeline.RDat.hwaits_of_owed_zero _ _ _ _ L lv 2 fun _ _ => rfl
  pre c := iprop(StableHlo.held (c : Thread nD τ) (Pipeline.ucRefs τ sig) (V5 m (outs4 m) c) ∗ Rst c)
  post c := iprop(StableHlo.held (c : Thread nD τ) (Pipeline.ucRefs τ sig) (V6 m (outs6 m) c) ∗ Rst c)
  X c := iprop(∃ r, prngReg c r)
  Y c := iprop(∃ r, prngReg c r)
  Z c := Pipeline.unscopedRest (Ix := Unit) (Name := ℕ) (U := UR sig nD τ) (Lvl := ℕ) spec2 c (E2 m c)
  hentry c := hentry_of m fg (p := 2) launch2.win launch2.arr_whole c _ ((pdatsD m 2 c).share_full fun _ => rfl) (fun _ => rfl) rfl rfl rfl _ _
  hin c := hin_of spec2 c _
  hout c := hout_of spec2 c
  hexit c := hexit_of m fg (p := 2) launch2.win launch2.arr_whole c _ _ rfl ((pdatsD m 2 c).share_full fun _ => rfl) (hF2 m c) (hrest2 m c) rfl

end Cert.KernelIdeal.Fr

end
-- ==== Proof.KI.Reg3.lean ====
import proofs.«421618_j42769284334197_1_alg».proof.Proof.KI.RunData

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

theorem hF3 (c : Dev nD) (w : Fin cfg3.W) : (dat3 (E3 m) c).arrAt w cfg3.N = V8 m (outs8 m) c (Pipeline.arrRef spec3 w) := by
  match w with
  | ⟨5, _⟩ => exact (o8_def m c).symm.trans ((out_self3 m (outs8 m) c).trans (outs8_8 m c)).symm
  | ⟨0, _⟩ | ⟨1, _⟩ | ⟨2, _⟩ | ⟨3, _⟩ | ⟨4, _⟩ =>
    exact ((dat3 (E3 m) c).arrAt_in _ rfl _).trans ((A_eq3 (E3 m) c _).trans ((stage3 m c _).trans (V8_of m (outs8 m) c _ (by decide +revert)).symm))
theorem hrest3 (c : Dev nD) : ∀ b, b ∉ Finset.univ.image (Pipeline.arrRef spec3) → V8 m (outs8 m) c b = V7 m (outs6 m) c b :=
  fun b hb => (V8_of m (outs8 m) c b fun hmem =>
    hb (Finset.mem_image.mpr ⟨5, Finset.mem_univ _, (List.mem_singleton.mp hmem).symm⟩)).trans (stage3 m c b).symm

def R3 : Pipeline.RDat.RegionSeg (pcfgs (F := F)) adm (rdats m fg) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose.toR
  hwaits := Pipeline.RDat.hwaits_of_owed_zero _ _ _ _ L lv 3 fun _ _ => rfl
  pre c := iprop(StableHlo.held (c : Thread nD τ) (Pipeline.ucRefs τ sig) (V7 m (outs6 m) c) ∗ Rst c)
  post c := iprop(StableHlo.held (c : Thread nD τ) (Pipeline.ucRefs τ sig) (V8 m (outs8 m) c) ∗ Rst c)
  X c := iprop(∃ r, prngReg c r)
  Y c := iprop(∃ r, prngReg c r)
  Z c := Pipeline.unscopedRest (Ix := Unit) (Name := ℕ) (U := UR sig nD τ) (Lvl := ℕ) spec3 c (E3 m c)
  hentry c := hentry_of m fg (p := 3) launch3.win launch3.arr_whole c _ ((pdatsD m 3 c).share_full fun _ => rfl) (fun _ => rfl) rfl rfl rfl _ _
  hin c := hin_of spec3 c _
  hout c := hout_of spec3 c
  hexit c := hexit_of m fg (p := 3) launch3.win launch3.arr_whole c _ _ rfl ((pdatsD m 3 c).share_full fun _ => rfl) (hF3 m c) (hrest3 m c) rfl

end Cert.KernelIdeal.Fr

end
-- ==== Proof.KI.Reg4.lean ====
import proofs.«421618_j42769284334197_1_alg».proof.Proof.KI.RunData

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (fg : Fin 3 → Bool)

abbrev upd4 (c : Dev nD) (o : Buf (Elt F) ((c : Thread nD τ).loc main_v86)) : Valuation τ sig (Elt F) :=
  Function.update (V10 m (outs8 m) c) main_v86 o

abbrev Left4 (c : Dev nD) (o : Buf (Elt F) ((c : Thread nD τ).loc main_v86)) : Prop :=
  ((dat4 (E4 m) c).toRForget fg).ArrAt 2 cfg4.N o

def F4 (c : Dev nD) (o : Buf (Elt F) ((c : Thread nD τ).loc main_v86)) :
    (w : Fin cfg4.W) → Buf (Elt F) ((cfg4.win w).arr.view.loc (c : Thread nD τ))
  | ⟨0, _⟩ => (dat4 (E4 m) c).A 0
  | ⟨1, _⟩ => (dat4 (E4 m) c).A 1
  | ⟨2, _⟩ => o

theorem hF4 (c : Dev nD) (o : Buf (Elt F) ((c : Thread nD τ).loc main_v86)) (w : Fin cfg4.W) :
    F4 m c o w = upd4 m c o (Pipeline.arrRef spec4 w) := by
  match w with
  | ⟨0, _⟩ | ⟨1, _⟩ =>
    exact (A_eq4 (E4 m) c _).trans (Function.update_of_ne (StableHlo.devRef_ne_of_ne (by decide +revert) :
      (Proc.devRef .tc (Pipeline.arrRef spec4 _) : DevRef τ sig) ≠ Proc.devRef .tc main_v86) _ _).symm
  | ⟨2, _⟩ =>
    show o = Function.update (V10 m (outs8 m) c) main_v86 o main_v86
    rw [Function.update_self]

theorem hrest4 (c : Dev nD) (o : Buf (Elt F) ((c : Thread nD τ).loc main_v86)) :
    ∀ b, b ∉ Finset.univ.image (Pipeline.arrRef spec4) → upd4 m c o b = V10 m (outs8 m) c b :=
  fun b hb => by
    have hne : (Proc.devRef .tc b : DevRef τ sig) ≠ Proc.devRef .tc main_v86 :=
      StableHlo.devRef_ne_of_ne fun e => hb (Finset.mem_image.mpr ⟨2, Finset.mem_univ _, e.symm⟩)
    simp only [upd4, Function.update_of_ne hne]

variable (hb4 : ∀ c, BodyObligationLoose (dat4 (F := F) (E4 m) c) (defs₀ (F := F)) Variants.none () Set.univ fg)
  (hfg0 : fg 0 = false) (hfg1 : fg 1 = false)

def R4 : Pipeline.RDat.RegionSeg (pcfgs (F := F)) adm (rdats m fg) () defs₀ 𝒱₀ L lv 4 where
  win := launch4.win.to₀
  block_pos := launch4.block_pos
  stage_whole := launch4.stage_whole
  K := PEmpty
  osem k := k.elim
  ho := Pipeline.OwnSemFacts.none _
  hbody c := (hb4 c).toRForget
  hwaits := Pipeline.RDat.hwaits_of_owed_zero _ _ _ _ L lv 4 fun _ _ => rfl
  pre c := iprop(StableHlo.held (c : Thread nD τ) (Pipeline.ucRefs τ sig) (V10 m (outs8 m) c) ∗ Rst c)
  post c := iprop(∃ o, ⌜Left4 m fg c o⌝ ∗ StableHlo.held (c : Thread nD τ) (Pipeline.ucRefs τ sig) (upd4 m c o) ∗ Rst c)
  X c := iprop(∃ r, prngReg c r)
  Y c := iprop(∃ r, prngReg c r)
  Z c := Pipeline.unscopedRest (Ix := Unit) (Name := ℕ) (U := UR sig nD τ) (Lvl := ℕ) spec4 c (E4 m c)
  hentry c := hentry_of m fg (p := 4) launch4.win launch4.arr_whole c _ ((pdatsD m 4 c).share_full fun _ => rfl) (fun _ => rfl) rfl rfl rfl _ _
  hin c := hin_of spec4 c _
  hout c := hout_of spec4 c
  hexit c := by
    have hjoin := fun o => Pipeline.unscopedBufs_of_arrays (p := 4) (pcfgs (F := F)) adm (Ix := Unit) (Name := ℕ) (U := UR sig nD τ) (Lvl := ℕ)
      launch4.win launch4.arr_whole c (pdatsD m) ((pdatsD m 4 c).share_full fun _ => rfl)
      (E4 m c) (fun b => upd4 m c o b) (F4 m c o) (hF4 m c o) (hrest4 m c o)
    show iprop(((dat4 (E4 m) c).toRForget fg).arraysAt cfg4.N ∗ _ ∗ _ ∗ _) ⊢ _
    unfold RDat.arraysAt
    rw [bigSep_W4]
    iintro ⟨⟨⟨%F0, %h0, H0⟩, ⟨%F1, %h1, H1⟩, ⟨%F2, %h2, H2⟩⟩, HO, HY, Hrest⟩
    have e0 : F0 = (dat4 (E4 m) c).A 0 :=
      (((dat4 (E4 m) c).toRForget_arrAt_iff hfg0 cfg4.N F0).mp h0).trans ((dat4 (E4 m) c).arrAt_in 0 rfl _)
    have e1 : F1 = (dat4 (E4 m) c).A 1 :=
      (((dat4 (E4 m) c).toRForget_arrAt_iff hfg1 cfg4.N F1).mp h1).trans ((dat4 (E4 m) c).arrAt_in 1 rfl _)
    subst e0; subst e1
    imodintro
    iexists F2
    isplitr; · ipureintro; exact h2
    isplitl [H0 H1 H2 Hrest]
    · have hj := hjoin F2
      rw [Pipeline.unscopedBufs_held] at hj
      iapply hj
      isplitl [H0 H1 H2]
      · unfold Dat.arrays
        rw [bigSep_W4]
        isplitl [H0]; · iexact H0
        isplitl [H1]; · iexact H1
        iexact H2
      iexact Hrest
    isplitl [HY]; · iexact HY
    unfold Pipeline.RDat.owesAt Pipeline.owesWithin
    icases HO with ⟨%W, -, HO⟩; iexists W; iexact HO

end Cert.KernelIdeal.Fr

end
-- ==== Proof.KI.Run.lean ====
import proofs.«421618_j42769284334197_1_alg».proof.Proof.KI.Reg0
import proofs.«421618_j42769284334197_1_alg».proof.Proof.KI.Reg1
import proofs.«421618_j42769284334197_1_alg».proof.Proof.KI.Reg2
import proofs.«421618_j42769284334197_1_alg».proof.Proof.KI.Reg3
import proofs.«421618_j42769284334197_1_alg».proof.Proof.KI.Reg4

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (fg : Fin 3 → Bool)

abbrev Es : Fin 6 → Dev nD → sProp 𝕄 := fun _ c => Rst c

set_option backward.isDefEq.respectTransparency.types false in

def segLast : Pipeline.HostSeg (Ix := Unit) (Name := ℕ) (U := UR sig nD τ) (Lvl := ℕ) (pcfgs (F := F)) defs₀ 𝒱₀ L lv where
  prog := StableHlo.seq hostOps5
  pre c := iprop(∃ o, ⌜Left4 m fg c o⌝ ∗ StableHlo.held (c : Thread nD τ) (Pipeline.ucRefs τ sig) (upd4 m c o) ∗ Rst c)
  post c := iprop(∃ o, ⌜Left4 m fg c o⌝ ∗ StableHlo.held (c : Thread nD τ) (Pipeline.ucRefs τ sig) (StableHlo.after hostOps5 (upd4 m c o)) ∗ Rst c)
  run c {β} k K := by
    iintro ⟨Hk, Hbd, ⟨%o, %hP, Hh, HR⟩, Hl⟩
    have hrun := (Pipeline.HostSeg.ofOps (Name := ℕ) (U := UR sig nD τ) (pcfgs (F := F)) defs₀ 𝒱₀ L lv (Pipeline.ucRefs τ sig) hostOps5
      (fun op h => Pipeline.sub_ucRefs op ((List.forall_iff_forall_mem.mp hostOps5_sub) op h))
      (fun op h => (List.forall_iff_forall_mem.mp hostOps5_fresh) op h) (fun _ => upd4 m c o) Rst).run c k K
    dsimp only [Pipeline.HostSeg.ofOps] at hrun
    iapply hrun
    isplitl [Hk]
    · iintro ⟨Hbd, Hh, HR⟩
      iapply Hk
      iframe Hbd
      iexists o
      isplitr; · ipureintro; exact hP
      iframe Hh HR
    iframe Hbd Hh HR Hl

abbrev segsR (hb4 : ∀ c, BodyObligationLoose (dat4 (F := F) (E4 m) c) (defs₀ (F := F)) Variants.none () Set.univ fg)
    (hfg0 : fg 0 = false) (hfg1 : fg 1 = false) :
    List (Pipeline.RDat.Seg (pcfgs (F := F)) adm (rdats m fg) () defs₀ 𝒱₀ L lv) :=
  [ .host (seg0 m 𝒱₀ L lv (Es (F := F))),
    .region (R0 m fg),
    .host (seg2 m (outs2 m) 𝒱₀ L lv (Es (F := F))),
    .region (R1 m fg),
    .host (seg4 m (outs4 m) 𝒱₀ L lv (Es (F := F))),
    .region (R2 m fg),
    .host (seg6 m (outs6 m) 𝒱₀ L lv (Es (F := F))),
    .region (R3 m fg),
    .host (seg8 m (outs8 m) 𝒱₀ L lv (Es (F := F))),
    .host (seg9 m (outs8 m) 𝒱₀ L lv (Es (F := F))),
    .region (R4 m fg hb4 hfg0 hfg1),
    .host (segLast m fg) ]

abbrev Tlast (c : Dev nD) : sProp 𝕄 :=
  iprop(∃ o, ⌜Left4 m fg c o⌝ ∗ StableHlo.held (c : Thread nD τ) (Pipeline.ucRefs τ sig) (StableHlo.after hostOps5 (upd4 m c o)) ∗ ∃ r, prngReg c r)

set_option backward.isDefEq.respectTransparency.types false in

theorem run_all (hb4 : ∀ c, BodyObligationLoose (dat4 (F := F) (E4 m) c) (defs₀ (F := F)) Variants.none () Set.univ fg)
    (hfg0 : fg 0 = false) (hfg1 : fg 1 = false) :
    θ_run defs (onTc (τ := τ) (main (F := F))) ⟨m, fun _ => 0, ρ⟩ (fun r => ∀ c : Dev nD,
      ∃ o, Left4 m fg c o ∧ ∀ b ∈ Pipeline.ucRefs τ sig,
        r.2.mem (((c : Thread nD τ)).1, b) = StableHlo.after hostOps5 (upd4 m c o) b) :=
  Pipeline.RDat.θ_run_regions_kit (pcfgs (F := F)) adm (rdats m fg) () cellOf_inj emb₁ defs₀ 𝒱₀ L lv m ρ main
    (segsR m fg hb4 hfg0 hfg1)
    (fun c Q => by
      rewrite [main_chain c, Pipeline.RDat.Seg.run_eq_chain,
        show (segsR m fg hb4 hfg0 hfg1).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5 ] from rfl]
      exact .rfl)
    (by simp only [segsR, Pipeline.RDat.Seg.pipes, List.filterMap, Pipeline.RDat.Seg.pipe?]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tlast m fg)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show (iprop(∃ o, ⌜Left4 m fg c o⌝ ∗ StableHlo.held (c : Thread nD τ) (Pipeline.ucRefs τ sig) (StableHlo.after hostOps5 (upd4 m c o)) ∗ Rst c) : sProp 𝕄)
          ⊢ iprop(Tlast m fg c ∗ ∃ W, owes (c : Thread nD τ) (0 : CellTallies nD τ sig Unit) W)
        iintro ⟨%o, %hP, Hh, Hp, HO⟩
        iframe HO
        iexists o
        isplitr; · ipureintro; exact hP
        iframe Hh Hp⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ o, Left4 m fg c o ∧ ∀ b ∈ Pipeline.ucRefs τ sig,
      s.mem (((c : Thread nD τ)).1, b) = StableHlo.after hostOps5 (upd4 m c o) b)
    (hfin := fun c s' => by
      iintro ⟨⟨%o, %hP, Hh, -⟩, HSI⟩
      unfold StableHlo.held
      ihave Hr := (pointsTo_read_all (Pipeline.ucRefs τ sig) (fun b => (((c : Thread nD τ)).1, b)) (StableHlo.after hostOps5 (upd4 m c o)) s') $$ [Hh HSI]
      · isplitl [Hh] <;> iassumption
      icases Hr with ⟨%h, HSI⟩
      imodintro
      isplitr
      · ipureintro; exact ⟨o, hP, h⟩
      iexact HSI)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev argRefs : List (Ref sig .tc) := [main_arg0, main_arg1, main_arg2, main_arg3, main_arg4, main_arg5, main_arg6, main_arg7,
  main_arg8, main_arg9, main_arg10, main_arg11, main_arg12, main_arg13, main_arg14, main_arg15, main_arg16, main_arg17]

theorem arg_untouched : ∀ r ∈ argRefs, r ∉ hostOps0_W ∧ r ∉ ([main_v20] : List (Ref sig .tc)) ∧ r ∉ hostOps1_W
    ∧ r ∉ ([main_v41] : List (Ref sig .tc)) ∧ r ∉ hostOps2_W ∧ r ∉ ([main_v62] : List (Ref sig .tc)) ∧ r ∉ hostOps3_W
    ∧ r ∉ ([main_v83] : List (Ref sig .tc)) ∧ r ∉ hostOps4_W ∧ r ∉ hostOps4_1_W ∧ r ≠ main_v86 ∧ r ∉ hostOps5_W := by decide

theorem last_arg (c : Dev nD) (o : Buf (Elt F) ((c : Thread nD τ).loc main_v86)) (r : Ref sig .tc) (hr : r ∈ argRefs) :
    StableHlo.after hostOps5 (upd4 m c o) r = m ((c : Thread nD τ).loc r) := by
  obtain ⟨h1, h2, h3, h4, h5, h6, h7, h8, h9, h10, h11, h12⟩ := arg_untouched r hr
  refine (StableHlo.after_of_writes_sub hostOps5 _ hostOps5_writes h12).trans ?_
  refine (Function.update_of_ne (StableHlo.devRef_ne_of_ne h11 : (Proc.devRef .tc r : DevRef τ sig) ≠ Proc.devRef .tc main_v86) _ _).trans ?_
  exact (V10_of m (outs8 m) c r h10).trans <| (V9_of m (outs8 m) c r h9).trans <| (V8_of m (outs8 m) c r h8).trans <|
    (V7_of m (outs8 m) c r h7).trans <| (V6_of m (outs8 m) c r h6).trans <| (V5_of m (outs8 m) c r h5).trans <|
    (V4_of m (outs8 m) c r h4).trans <| (V3_of m (outs8 m) c r h3).trans <| (V2_of m (outs8 m) c r h2).trans <|
    (V1_of m c r h1).trans rfl

theorem frame_all (hb4 : ∀ c, BodyObligationLoose (dat4 (F := F) (E4 m) c) (defs₀ (F := F)) Variants.none () Set.univ fg)
    (hfg0 : fg 0 = false) (hfg1 : fg 1 = false) :
    θ_run defs (onTc (τ := τ) (main (F := F))) ⟨m, fun _ => 0, ρ⟩ (fun r => ∀ c : Dev nD,
      ∀ a ∈ argRefs, r.2.mem ((c.tc : Thread nD τ).loc a) = m ((c.tc : Thread nD τ).loc a)) :=
  (θ_run defs _ _).mono (fun r h c a ha => by
    obtain ⟨o, -, hb⟩ := h c
    have hs : ¬ (Proc.devRef .tc a : DevRef τ sig).isScoped := by
      revert a; decide
    exact (hb _ (mem_uc a hs)).trans (last_arg m c o a ha))
    (run_all m ρ fg hb4 hfg0 hfg1)

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

def biasRow (b : (⟨1, ![64]⟩ : Shape).Idx → EReal) : (⟨2, ![1, 64]⟩ : Shape).Idx → EReal :=
  fun i => b (ix1 (i 1))

/-- One entry of a layer: neighbour mean through the left weight, own features through the right weight, bias; `max` with zero when `relu`. -/
def combineAt (relu : Bool) {N : Nat} (mean x : (⟨2, ![N, 64]⟩ : Shape).Idx → EReal)
    (wl wr : (⟨2, ![64, 64]⟩ : Shape).Idx → EReal) (b : (⟨2, ![1, 64]⟩ : Shape).Idx → EReal) (r : Fin N) (j : Fin 64) : EReal :=
  if relu then
    max ((∑ k : Fin 64, mean (ix2 r k) * wl (ix2 k j)) + (∑ k : Fin 64, x (ix2 r k) * wr (ix2 k j)) + b (ix2 (0 : Fin 1) j)) 0
  else
    (∑ k : Fin 64, mean (ix2 r k) * wl (ix2 k j)) + (∑ k : Fin 64, x (ix2 r k) * wr (ix2 k j)) + b (ix2 (0 : Fin 1) j)

def combine (relu : Bool) {N : Nat} (mean x : (⟨2, ![N, 64]⟩ : Shape).Idx → EReal)
    (wl wr : (⟨2, ![64, 64]⟩ : Shape).Idx → EReal) (b : (⟨2, ![1, 64]⟩ : Shape).Idx → EReal) :
    (⟨2, ![N, 64]⟩ : Shape).Idx → EReal :=
  fun i => combineAt relu mean x wl wr b (i 0) (i 1)

def rowdotAt {N : Nat} (g d : (⟨2, ![N, 64]⟩ : Shape).Idx → EReal) (r : Fin N) : EReal :=
  ∑ k : Fin 64, g (ix2 r k) * d (ix2 r k)

def rowdotCol {N : Nat} (g d : (⟨2, ![N, 64]⟩ : Shape).Idx → EReal) : (⟨2, ![N, 1]⟩ : Shape).Idx → EReal :=
  fun i => rowdotAt g d (i 0)

def rowdotVec {N : Nat} (g d : (⟨2, ![N, 64]⟩ : Shape).Idx → EReal) : (⟨1, ![N]⟩ : Shape).Idx → EReal :=
  fun i => rowdotAt g d (i 0)

end Cert.Spec

end
-- ==== Proof.KI.DotVal4.lean ====
import proofs.«421618_j42769284334197_1_alg».proof.Proof.KI.Dot4
import proofs.«421618_j42769284334197_1_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

local notation "𝕄" => MT nD τ sig Unit (Elt Ideal) ℕ (UR sig nD τ) ℕ

variable (V : (c : Dev nD) → (b : Ref sig .tc) → Buf (Elt Ideal) ((c : Thread nD τ).loc b))

theorem offsets4_zero : (![0, 0] : Fin 2 → Nat) = fun _ => 0 :=
  funext fun a => match a with | ⟨0, _⟩ => rfl | ⟨1, _⟩ => rfl

theorem pay4_apply (x0 x1 : Vec Ideal S4096x64 .f32) (p : Fin 4096) (u : Fin 1) :
    (k4_pay1 (F := Ideal) x0 x1) (ix2 p u) = ∑ k : Fin 64, x0 (ix2 p k) * x1 (ix2 p k) := by
  unfold k4_pay1
  dsimp only
  refine (shapeCast_apply _ _ (ix2 p u) (ix1 p) ?_).trans ?_
  · rw [Shape.rowMajor_val_one, Shape.rowMajor_val_two]
    show p.val = p.val * 1 + u.val
    omega
  refine (Ideal.multiReduction_add_single _ _ _ _ _ (ix1 p)).trans ?_
  refine Finset.sum_congr rfl fun k _ => ?_
  rw [shapeCast_self, shapeCast_self]
  have hk : (reduces_S4096x64_S4096).lift (ix1 p) k = ix2 p k := by
    funext a
    match a with
    | ⟨0, _⟩ => rfl
    | ⟨1, _⟩ => rfl
  rw [hk]
  rfl

theorem out4_2_apply (x0 x1 : Vec Ideal S4096x64 .f32) (p : Fin 4096) (u : Fin 1) :
    Fr.out4_2 (F := Ideal) x0 x1 (ix2 p u) = ∑ k : Fin 64, x0 (ix2 p k) * x1 (ix2 p k) := by
  unfold Fr.out4_2
  rw [View.canon_unit_zero offsets4_zero]
  simp only [View.ld_unit_zero (S := S4096x64) offsets4_zero]
  exact pay4_apply x0 x1 p u

theorem eq_of_cut_eq4 {G : Pipeline.Grid} (w : Window sig G) {α : Type} (i : G.Coords) {X Y : w.block.Idx → α}
    (h : w.cut i X = w.cut i Y) (j : w.block.Idx) (hm : ∀ a, (j a).val < w.xsize i a) : X j = Y j := by
  have e := congrFun h (fun a => ⟨(j a).val, hm a⟩)
  have hj : w.xinj i (fun a => ⟨(j a).val, hm a⟩) = j := funext fun a => Fin.ext rfl
  change X (w.xinj i _) = Y (w.xinj i _) at e
  rw [hj] at e
  exact e

theorem cut_out4_2_congr (i : grid4.Coords) (x0 x0' x1 x1' : Vec Ideal S4096x64 .f32)
    (h0 : win4_0.cut i x0 = win4_0.cut i x0') (h1 : win4_1.cut i x1 = win4_1.cut i x1') :
    win4_2.cut i (Fr.out4_2 (F := Ideal) x0 x1) = win4_2.cut i (Fr.out4_2 (F := Ideal) x0' x1') := by
  funext j
  have hp : (j 0).val < 4096 := Nat.lt_of_lt_of_le (j 0).isLt (win4_2.xsize_le i 0)
  have hu : (j 1).val < 1 := Nat.lt_of_lt_of_le (j 1).isLt (win4_2.xsize_le i 1)
  have hj : win4_2.xinj i j = ix2 (⟨(j 0).val, hp⟩ : Fin 4096) (⟨(j 1).val, hu⟩ : Fin 1) := by
    funext a
    match a with
    | ⟨0, _⟩ => rfl
    | ⟨1, _⟩ => rfl
  show Fr.out4_2 (F := Ideal) x0 x1 (win4_2.xinj i j) = Fr.out4_2 (F := Ideal) x0' x1' (win4_2.xinj i j)
  rw [hj, out4_2_apply, out4_2_apply]
  refine Finset.sum_congr rfl fun k _ => ?_
  have e0 : x0 (ix2 (⟨(j 0).val, hp⟩ : Fin 4096) k) = x0' (ix2 (⟨(j 0).val, hp⟩ : Fin 4096) k) :=
    eq_of_cut_eq4 win4_0 i h0 (ix2 (⟨(j 0).val, hp⟩ : Fin 4096) k) fun a => by
      match a with | ⟨0, _⟩ => exact (j 0).isLt | ⟨1, _⟩ => exact k.isLt
  have e1 : x1 (ix2 (⟨(j 0).val, hp⟩ : Fin 4096) k) = x1' (ix2 (⟨(j 0).val, hp⟩ : Fin 4096) k) :=
    eq_of_cut_eq4 win4_1 i h1 (ix2 (⟨(j 0).val, hp⟩ : Fin 4096) k) fun a => by
      match a with | ⟨0, _⟩ => exact (j 0).isLt | ⟨1, _⟩ => exact k.isLt
  rw [e0, e1]

def bodyPre4V (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4V (c : Dev nD) (t : Fin cfg4.N) : sProp 𝕄 :=
  iprop((dat4 V c).Φ t.succ ∗ (dat4 V c).owesAt () t.succ
    ∗ (∃ d, owns (c : Thread nD τ) (st4_0 t) fullShare ((cfg4.win 0).fill (cfg4.grid.coords t) d ((cfg4.win 0).cut (cfg4.grid.coords t) ((dat4 V c).after 0 t))))
    ∗ (∃ d, owns (c : Thread nD τ) (st4_1 t) fullShare ((cfg4.win 1).fill (cfg4.grid.coords t) d ((cfg4.win 1).cut (cfg4.grid.coords t) ((dat4 V c).after 1 t))))
    ∗ (∃ d, owns (c : Thread nD τ) (st4_2 t) fullShare ((cfg4.win 2).fill (cfg4.grid.coords t) d ((cfg4.win 2).cut (cfg4.grid.coords t) ((dat4 V c).after 2 t)))))

theorem sound_body4V (c : Dev nD) (t : Fin cfg4.N) :
    bodyPre4V V c t ⊢ wp frame (wpE (defs₀ (F := Ideal)) Variants.none c none) Set.univ (bodyAt4 t) (fun _ => bodyPost4V V c t) := by
  unfold bodyPre4V bodyPost4V bodyAt4
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  rw [before4_0 V c t d0, before4_1 V c t d1]
  iapply (sound_kernel4 c Set.univ _ _ _ _ _ _ _ (win4_0.fill (grid4.coords t) d0 (iblk4 V c 0 t)) (win4_1.fill (grid4.coords t) d1 (iblk4 V c 1 t)) _)
  iframe H0 H1
  isplitl [H2]; · iexists _; iexact H2
  iintro ⟨H0, H1, H2⟩
  iframe HΦ Ho
  have hx : win4_0.cut (grid4.coords t) (ibuf4_0 V c t) = iblk4 V c 0 t := win4_0.cut_fill _ _ _
  have hy : win4_1.cut (grid4.coords t) (ibuf4_1 V c t) = iblk4 V c 1 t := win4_1.cut_fill _ _ _
  have hx' : win4_0.cut (grid4.coords t) (win4_0.fill (grid4.coords t) d0 (iblk4 V c 0 t))
      = win4_0.cut (grid4.coords t) (ibuf4_0 V c t) := (win4_0.cut_fill _ _ _).trans hx.symm
  have hy' : win4_1.cut (grid4.coords t) (win4_1.fill (grid4.coords t) d1 (iblk4 V c 1 t))
      = win4_1.cut (grid4.coords t) (ibuf4_1 V c t) := (win4_1.cut_fill _ _ _).trans hy.symm
  have hs : win4_2.fill (grid4.coords t)
        (out4_2 (win4_0.fill (grid4.coords t) d0 (iblk4 V c 0 t)) (win4_1.fill (grid4.coords t) d1 (iblk4 V c 1 t)))
        (win4_2.cut (grid4.coords t) (out4_2 (ibuf4_0 V c t) (ibuf4_1 V c t)))
      = out4_2 (win4_0.fill (grid4.coords t) d0 (iblk4 V c 0 t)) (win4_1.fill (grid4.coords t) d1 (iblk4 V c 1 t)) :=
    win4_2.fill_congr_cut (grid4.coords t)
      (cut_out4_2_congr (grid4.coords t)
        (win4_0.fill (grid4.coords t) d0 (iblk4 V c 0 t)) (ibuf4_0 V c t)
        (win4_1.fill (grid4.coords t) d1 (iblk4 V c 1 t)) (ibuf4_1 V c t) hx' hy')
  isplitl [H0]
  · iexists d0
    change _ ⊢ owns (c : Thread nD τ) (st4_0 t) fullShare (win4_0.fill (grid4.coords t) d0 (win4_0.cut (grid4.coords t) (ibuf4_0 V c t)))
    rw [hx]; try iexact H0
  isplitl [H1]
  · iexists d1
    change _ ⊢ owns (c : Thread nD τ) (st4_1 t) fullShare (win4_1.fill (grid4.coords t) d1 (win4_1.cut (grid4.coords t) (ibuf4_1 V c t)))
    rw [hy]; try iexact H1
  · iexists out4_2 (win4_0.fill (grid4.coords t) d0 (iblk4 V c 0 t)) (win4_1.fill (grid4.coords t) d1 (iblk4 V c 1 t))
    change _ ⊢ owns (c : Thread nD τ) (st4_2 t) fullShare (win4_2.fill (grid4.coords t)
      (out4_2 (win4_0.fill (grid4.coords t) d0 (iblk4 V c 0 t)) (win4_1.fill (grid4.coords t) d1 (iblk4 V c 1 t)))
      (win4_2.cut (grid4.coords t) (out4_2 (ibuf4_0 V c t) (ibuf4_1 V c t))))
    rw [hs]; try iexact H2

theorem body_obligation4V (c : Dev nD) :
    BodyObligationLoose (dat4 (F := Ideal) V c) (defs₀ (F := Ideal)) Variants.none () Set.univ := fun t => by
  rw [bigSep_W4, bigSep_W4]
  exact sound_body4V V c t

theorem rows4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_2.xsize (grid4.coords t) (0 : Fin 2) = (if (t.val + 1) * 4096 ≤ 500000 then 4096 else 500000 - t.val * 4096)
    ∧ win4_2.xsize (grid4.coords t) (1 : Fin 2) = 1 :=
  (by decide +kernel : ∀ t : Fin grid4.N, _)

abbrev gene4 (c : Dev nD) : S500000x64.Idx → EReal := V c main_v84
abbrev disease4 (c : Dev nD) : S500000x64.Idx → EReal := V c main_v85

theorem fill_apply_of_lt4 {G : Pipeline.Grid} (w : Window sig G) {α : Type} (i : G.Coords) (d : w.block.Idx → α)
    (g : (w.xblock i).Idx → α) (j : w.block.Idx) (hm : ∀ a, (j a).val < w.xsize i a) :
    w.fill i d g j = g fun a => ⟨(j a).val, hm a⟩ := by
  unfold Window.fill
  rw [dif_pos ((w.moved_iff i j).mpr hm)]

theorem ibuf4_0_apply (c : Dev nD) (t : Fin cfg4.N) (p : Fin 4096) (k : Fin 64)
    (hp : p.val < win4_2.xsize (grid4.coords t) (0 : Fin 2)) (r : Fin 500000) (hr : r.val = t.val * 4096 + p.val) :
    ibuf4_0 V c t (ix2 p k) = gene4 V c (ix2 r k) := by
  obtain ⟨a0, a1, -, -, -, -, -, -⟩ := rows4 t
  have hm : ∀ a, ((ix2 p k : S4096x64.Idx) a).val < win4_0.xsize (grid4.coords t) a := fun a => by
    match a with | ⟨0, _⟩ => exact hp | ⟨1, _⟩ => exact k.isLt
  unfold ibuf4_0
  rw [fill_apply_of_lt4 win4_0 (grid4.coords t) _ _ (ix2 p k) hm]
  show V c main_v84 (((cfg4.win 0).blk t).view.emb fun a => ⟨((ix2 p k : S4096x64.Idx) a).val, hm a⟩) = V c main_v84 (ix2 r k)
  refine congrArg (V c main_v84) ?_
  funext a
  apply Fin.ext
  match a with
  | ⟨0, _⟩ => show win4_0.index t (0 : Fin 2) * 4096 + 1 * p.val = r.val; omega
  | ⟨1, _⟩ => show win4_0.index t (1 : Fin 2) * 64 + 1 * k.val = k.val; omega

theorem ibuf4_1_apply (c : Dev nD) (t : Fin cfg4.N) (p : Fin 4096) (k : Fin 64)
    (hp : p.val < win4_2.xsize (grid4.coords t) (0 : Fin 2)) (r : Fin 500000) (hr : r.val = t.val * 4096 + p.val) :
    ibuf4_1 V c t (ix2 p k) = disease4 V c (ix2 r k) := by
  obtain ⟨-, -, b0, b1, -, -, -, -⟩ := rows4 t
  have hm : ∀ a, ((ix2 p k : S4096x64.Idx) a).val < win4_1.xsize (grid4.coords t) a := fun a => by
    match a with | ⟨0, _⟩ => exact hp | ⟨1, _⟩ => exact k.isLt
  unfold ibuf4_1
  rw [fill_apply_of_lt4 win4_1 (grid4.coords t) _ _ (ix2 p k) hm]
  show V c main_v85 (((cfg4.win 1).blk t).view.emb fun a => ⟨((ix2 p k : S4096x64.Idx) a).val, hm a⟩) = V c main_v85 (ix2 r k)
  refine congrArg (V c main_v85) ?_
  funext a
  apply Fin.ext
  match a with
  | ⟨0, _⟩ => show win4_1.index t (0 : Fin 2) * 4096 + 1 * p.val = r.val; omega
  | ⟨1, _⟩ => show win4_1.index t (1 : Fin 2) * 64 + 1 * k.val = k.val; omega

theorem flushed4_2 (c : Dev nD) (t : Fin cfg4.N) :
    (dat4 V c).flushed 2 t
      = ((cfg4.win 2).blk t).view.read (Elt Ideal) (Cert.Spec.rowdotCol (N := 500000) (V c main_v84) (V c main_v85)) := by
  show (cfg4.win 2).cut (grid4.coords t) ((dat4 V c).after 2 t) = _
  rw [after4_2]
  obtain ⟨-, -, -, -, o0, o1, hx0, hx1⟩ := rows4 t
  funext j
  have hp : (j 0).val < 4096 := Nat.lt_of_lt_of_le (j 0).isLt (win4_2.xsize_le (grid4.coords t) 0)
  have hu : (j 1).val < 1 := Nat.lt_of_lt_of_le (j 1).isLt (win4_2.xsize_le (grid4.coords t) 1)
  have hj : win4_2.xinj (grid4.coords t) j = ix2 (⟨(j 0).val, hp⟩ : Fin 4096) (⟨(j 1).val, hu⟩ : Fin 1) := by
    funext a
    match a with
    | ⟨0, _⟩ => rfl
    | ⟨1, _⟩ => rfl
  have hlt : (j 0).val < win4_2.xsize (grid4.coords t) (0 : Fin 2) := (j 0).isLt
  have hr : t.val * 4096 + (j 0).val < 500000 := by
    rw [hx0] at hlt
    split at hlt <;> omega
  have he : (((cfg4.win 2).blk t).view.emb j : S500000x1.Idx) = ix2 (⟨t.val * 4096 + (j 0).val, hr⟩ : Fin 500000) (0 : Fin 1) := by
    funext a
    apply Fin.ext
    match a with
    | ⟨0, _⟩ => show win4_2.index t (0 : Fin 2) * 4096 + 1 * (j 0).val = t.val * 4096 + (j 0).val; omega
    | ⟨1, _⟩ => show win4_2.index t (1 : Fin 2) * 1 + 1 * (j 1).val = 0; omega
  show out4_2 (ibuf4_0 V c t) (ibuf4_1 V c t) (win4_2.xinj (grid4.coords t) j)
    = Cert.Spec.rowdotCol (N := 500000) (V c main_v84) (V c main_v85) (((cfg4.win 2).blk t).view.emb j)
  rw [hj, out4_2_apply, he]
  show _ = ∑ k : Fin 64, gene4 V c (ix2 (⟨t.val * 4096 + (j 0).val, hr⟩ : Fin 500000) k) * disease4 V c (ix2 (⟨t.val * 4096 + (j 0).val, hr⟩ : Fin 500000) k)
  refine Finset.sum_congr rfl fun k _ => ?_
  rw [ibuf4_0_apply V c t ⟨(j 0).val, hp⟩ k hlt ⟨t.val * 4096 + (j 0).val, hr⟩ rfl,
    ibuf4_1_apply V c t ⟨(j 0).val, hp⟩ k hlt ⟨t.val * 4096 + (j 0).val, hr⟩ rfl]

theorem mem_blk4_2 (t : Fin cfg4.N) (i : S500000x1.Idx) :
    i ∈ ((cfg4.win 2).blk t).view.set ↔ ∀ a : Fin 2, win4_2.index t a * S4096x1.size a ≤ (i a).val
      ∧ (i a).val < win4_2.index t a * S4096x1.size a + win4_2.xsize (grid4.coords t) a := by
  show i ∈ ((View.whole main_v86).slice (win4_2.rect t)).set ↔ _
  rw [View.set_slice_whole, Rect.mem_set_unit]
  exact Iff.rfl

theorem rows_covered4 (i : S500000x1.Idx) :
    ∃ t : Fin cfg4.N, (cfg4.win 2).flush t = true ∧ i ∈ ((cfg4.win 2).blk t).view.set := by
  have hi0 : (i 0).val < 500000 := (i 0).isLt
  have hi1 : (i 1).val < 1 := (i 1).isLt
  have hq : (i 0).val / 4096 < cfg4.N := Nat.lt_of_lt_of_eq (by omega : (i 0).val / 4096 < 123) N_4.symm
  refine ⟨⟨(i 0).val / 4096, hq⟩, flush4_2 _, ?_⟩
  rw [mem_blk4_2]
  obtain ⟨-, -, -, -, o0, o1, hx0, hx1⟩ := rows4 ⟨(i 0).val / 4096, hq⟩
  intro a
  match a with
  | ⟨0, _⟩ =>
    show win4_2.index ⟨(i 0).val / 4096, hq⟩ (0 : Fin 2) * 4096 ≤ (i 0).val
      ∧ (i 0).val < win4_2.index ⟨(i 0).val / 4096, hq⟩ (0 : Fin 2) * 4096 + win4_2.xsize (grid4.coords ⟨(i 0).val / 4096, hq⟩) (0 : Fin 2)
    rw [o0, hx0]
    show (i 0).val / 4096 * 4096 ≤ (i 0).val
      ∧ (i 0).val < (i 0).val / 4096 * 4096 + (if ((i 0).val / 4096 + 1) * 4096 ≤ 500000 then 4096 else 500000 - (i 0).val / 4096 * 4096)
    split <;> omega
  | ⟨1, _⟩ =>
    show win4_2.index ⟨(i 0).val / 4096, hq⟩ (1 : Fin 2) * 1 ≤ (i 1).val
      ∧ (i 1).val < win4_2.index ⟨(i 0).val / 4096, hq⟩ (1 : Fin 2) * 1 + win4_2.xsize (grid4.coords ⟨(i 0).val / 4096, hq⟩) (1 : Fin 2)
    rw [o1, hx1]
    omega

theorem final4 (c : Dev nD) :
    ((dat4 (F := Ideal) V c).arrAt 2 cfg4.N : S500000x1.Idx → EReal)
      = Cert.Spec.rowdotCol (V c main_v84) (V c main_v85) :=
  (dat4 (F := Ideal) V c).arrAt_eq_of_cover 2 (Cert.Spec.rowdotCol (N := 500000) (V c main_v84) (V c main_v85))
    (fun t _ => flushed4_2 V c t) rows_covered4

end Cert.KernelIdeal.Val

end
-- ==== Proof.LibRowGather.lean ====
import Idealize.ShloMosaic.Lib.ValueIdx
import Idealize.ShloMosaic.Lib.StableHlo.Predicate

noncomputable section

namespace Cert.LibRowGather

open Idealize.ShloMosaic Idealize.ShloMosaic.ValueIdx Idealize.ShloMosaic.StableHlo.Predicate

section Layout
variable (E C : Nat) (t : Shape)

theorem inj01 : Function.Injective (![0, 1] : Fin 2 → Fin 2) := by decide

theorem bc0 : (⟨0, ![]⟩ : Shape).BroadcastsInDim t ![] := ⟨fun a => a.elim0, fun a => a.elim0⟩

theorem bcCol : (⟨1, ![E]⟩ : Shape).BroadcastsInDim ⟨2, ![E, 1]⟩ ![0] :=
  ⟨fun a b _ => Subsingleton.elim a b, fun a => match a with | ⟨0, _⟩ => Or.inr rfl⟩

theorem bcRows : (⟨1, ![E]⟩ : Shape).BroadcastsInDim ⟨2, ![E, C]⟩ ![0] :=
  ⟨fun a b _ => Subsingleton.elim a b, fun a => match a with | ⟨0, _⟩ => Or.inr rfl⟩

theorem bcAcross : (⟨2, ![E, 1]⟩ : Shape).BroadcastsInDim ⟨2, ![E, C]⟩ ![0, 1] :=
  ⟨inj01, fun a => match a with | ⟨0, _⟩ => Or.inr rfl | ⟨1, _⟩ => Or.inl rfl⟩

theorem bcDown : (⟨2, ![1, 1]⟩ : Shape).BroadcastsInDim ⟨2, ![E, 1]⟩ ![0, 1] :=
  ⟨inj01, fun a => match a with | ⟨0, _⟩ => Or.inl rfl | ⟨1, _⟩ => Or.inl rfl⟩

theorem redCol : (⟨2, ![E, 1]⟩ : Shape).ReducesTo [1] ⟨1, ![E]⟩ := ⟨rfl, fun b => match b with | ⟨0, _⟩ => rfl⟩

end Layout

theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

theorem rowbit_apply {α : Type} {E C : Nat} (h : (⟨1, ![E]⟩ : Shape).BroadcastsInDim ⟨2, ![E, C]⟩ ![0])
    (v : (⟨1, ![E]⟩ : Shape).Idx → α) (e : Fin E) (c : Fin C) :
    broadcastInDim ⟨2, ![E, C]⟩ ![0] h v (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

private theorem toNat_of_toInt_nonneg (x : BitVec 32) (h : 0 ≤ x.toInt) : x.toNat < 2 ^ 31 ∧ x.toInt = x.toNat := by
  have hc := BitVec.toInt_eq_toNat_cond x
  have hx := x.isLt
  split at hc <;> omega

private theorem foldl_andi_one {ι : Type} (f : ι → BitVec 1) :
    ∀ l : List ι, (∀ n ∈ l, f n = 1#1) → l.foldl (fun r n => IntOp.andi r (f n)) 1#1 = 1#1
  | [], _ => rfl
  | b :: l, h => by
    have h11 : IntOp.andi 1#1 1#1 = 1#1 := by decide
    rw [List.foldl_cons, h b List.mem_cons_self, h11]
    exact foldl_andi_one f l (fun n hn => h n (List.mem_cons_of_mem _ hn))

section Mask
variable {α : Type} {N E C : Nat} (wN wM : BitVec 32) (a : IVec ⟨1, ![E]⟩ 32)

def idxCol : IVec ⟨2, ![E, 1]⟩ 32 :=
  broadcastInDim ⟨2, ![E, 1]⟩ ![0] (bcCol E)
    (select (cmpi .slt a (broadcastInDim ⟨1, ![E]⟩ ![] (bc0 _) (constantI ⟨0, ![]⟩ 32 0#32)))
      (addi a (broadcastInDim ⟨1, ![E]⟩ ![] (bc0 _) (constantI ⟨0, ![]⟩ 32 wN))) a)

def okVec : IVec ⟨1, ![E]⟩ 1 :=
  Host.reduce IntOp.andi
    (andi (cmpi .sge (idxCol wN a) (broadcastInDim ⟨2, ![E, 1]⟩ ![] (bc0 _) (constantI ⟨0, ![]⟩ 32 0#32)))
      (cmpi .sle (idxCol wN a)
        (broadcastInDim ⟨2, ![E, 1]⟩ ![0, 1] (bcDown E) (broadcastInDim ⟨2, ![1, 1]⟩ ![1] (by decide) (constantI ⟨1, ![1]⟩ 32 wM)))))
    (constantI ⟨0, ![]⟩ 1 1#1) (redCol E) (by decide)

/-- Rows taken at the wrapped indices, a row whose index is out of range replaced by `fill`. -/
def takeFill (g : IVec ⟨2, ![E, 1]⟩ 32 → (⟨2, ![E, C]⟩ : Shape).Idx → α) (fill : (⟨2, ![E, C]⟩ : Shape).Idx → α) :
    (⟨2, ![E, C]⟩ : Shape).Idx → α :=
  select (broadcastInDim ⟨2, ![E, C]⟩ ![0] (bcRows E C) (okVec wN wM a)) (g (idxCol wN a)) fill

variable (ha : ∀ e : Fin E, 0 ≤ (a (ix1 e)).toInt ∧ (a (ix1 e)).toInt < N)

include ha in
theorem idxCol_apply (e : Fin E) : idxCol wN a (ix2 e (0 : Fin 1)) = a (ix1 e) := by
  have hslt : IntOp.cmpi .slt (a (ix1 e)) 0#32 = 0#1 := by
    have h := (ha e).1
    have h0 : (0#32 : BitVec 32).toInt = 0 := by decide
    have hf : (a (ix1 e)).slt 0#32 = false := by
      simp only [BitVec.slt, h0, decide_eq_false_iff_not, not_lt]; exact h
    show BitVec.ofBool ((a (ix1 e)).slt 0#32) = 0#1
    rw [hf]; rfl
  refine (col_apply (bcCol E) _ e).trans ?_
  show Scalar.select (IntOp.cmpi .slt (a (ix1 e)) 0#32) (IntOp.addi (a (ix1 e)) wN) (a (ix1 e)) = a (ix1 e)
  rw [hslt, select_zero]

include ha in
theorem okVec_apply (hN : N < 2 ^ 31) (hM : wM.toNat = N - 1) (e : Fin E) : okVec wN wM a (ix1 e) = 1#1 := by
  unfold okVec
  rw [Host.reduce_eq_foldl]
  refine foldl_andi_one _ _ fun i _ => ?_
  obtain ⟨e', z, rfl⟩ : ∃ (e' : Fin E) (z : Fin 1), i = ix2 e' z := ⟨i 0, i 1, eq_ix2 i⟩
  obtain rfl : z = 0 := Subsingleton.elim _ _
  obtain ⟨hlt, hint⟩ := toNat_of_toInt_nonneg (a (ix1 e')) (ha e').1
  have hup := (ha e').2
  have hge : IntOp.cmpi .sge (a (ix1 e')) 0#32 = 1#1 := (sge_iff_toNat hlt (by decide)).2 (Nat.zero_le _)
  have hle : IntOp.cmpi .sle (a (ix1 e')) wM = 1#1 := (sle_iff_toNat hlt (by omega)).2 (by omega)
  show IntOp.andi (IntOp.cmpi .sge (idxCol wN a (ix2 e' (0 : Fin 1))) 0#32)
    (IntOp.cmpi .sle (idxCol wN a (ix2 e' (0 : Fin 1))) wM) = 1#1
  rw [idxCol_apply wN a ha e', hge, hle]
  decide

include ha in
/-- So with the indices in range the filled take is the plain one. -/
theorem takeFill_eq (hN : N < 2 ^ 31) (hM : wM.toNat = N - 1)
    (g : IVec ⟨2, ![E, 1]⟩ 32 → (⟨2, ![E, C]⟩ : Shape).Idx → α) (fill : (⟨2, ![E, C]⟩ : Shape).Idx → α) :
    takeFill wN wM a g fill = g (idxCol wN a) := by
  funext i
  obtain ⟨e, c, rfl⟩ : ∃ (e : Fin E) (c : Fin C), i = ix2 e c := ⟨i 0, i 1, eq_ix2 i⟩
  unfold takeFill
  rw [select_apply, rowbit_apply, okVec_apply wN wM a ha hN hM e, select_one]

end Mask

end Cert.LibRowGather

end
-- ==== Proof.LibCount.lean ====
import proofs.«421618_j42769284334197_1_alg».proof.Proof.LibRowGather
import Idealize.ShloMosaic.Lib.IdealHost

noncomputable section

open scoped BigOperators

namespace Cert.LibCount

open Idealize.ShloMosaic Idealize.ShloMosaic.ValueIdx Cert.LibRowGather

abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

abbrev colDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ :=
  { updateWindowDims := [1], insertedWindowDims := [0], scatterDimsToOperandDims := [0], indexVectorDim := 1, wf := wf }

/-- An update lands on `i` exactly when on every axis its start plus its window coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro hf a
      have h1 : (d.start j idx a + (d.window j a : Int)).toNat = (i a).val := congrArg Fin.val (congrFun hf a)
      have h0 := (h a).1
      omega
    · intro ht
      funext a
      refine Fin.ext ?_
      show (d.start j idx a + (d.window j a : Int)).toNat = (i a).val
      rw [ht a]
      exact Int.toNat_natCast _
  · next h =>
    refine ⟨fun hf => absurd hf (by simp), fun ht => absurd (fun a => ?_) h⟩
    have hi := (i a).isLt
    rw [ht a]
    omega

section Landing
variable {N E : Nat}

theorem vec_start (wf : ScatterDims.WF ⟨1, ![N]⟩ ⟨2, ![E, 1]⟩ ⟨1, ![E]⟩ [] [0] [0] 1)
    (idx : IVec ⟨2, ![E, 1]⟩ 32) (e : Fin E) :
    (vecDims N E wf).start (ix1 e) idx (0 : Fin 1) = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vec_window (wf : ScatterDims.WF ⟨1, ![N]⟩ ⟨2, ![E, 1]⟩ ⟨1, ![E]⟩ [] [0] [0] 1) (e : Fin E) :
    (vecDims N E wf).window (ix1 e) (0 : Fin 1) = 0 := by
  unfold ScatterDims.window
  have hk : (0 : Fin 1) ∉ (List.finRange 1).filter (· ∉ ([0] : List (Fin 1))) := by decide
  rw [dif_neg (show (0 : Fin 1) ∉ (vecDims N E wf).sKept from hk)]

theorem vec_resultIdx_iff (wf : ScatterDims.WF ⟨1, ![N]⟩ ⟨2, ![E, 1]⟩ ⟨1, ![E]⟩ [] [0] [0] 1)
    (idx : IVec ⟨2, ![E, 1]⟩ 32) (e : Fin E) (r : Fin N) :
    (vecDims N E wf).resultIdx? (ix1 e) idx = some (ix1 r) ↔ (idx (ix2 e (0 : Fin 1))).toInt = (r.val : Int) := by
  rw [resultIdx?_eq_some_iff, Fin.forall_fin_one, vec_start, vec_window]
  show _ + ((0 : Nat) : Int) = (r.val : Int) ↔ _
  omega

theorem col_start0 (wf : ScatterDims.WF ⟨2, ![N, 1]⟩ ⟨2, ![E, 1]⟩ ⟨2, ![E, 1]⟩ [1] [0] [0] 1)
    (idx : IVec ⟨2, ![E, 1]⟩ 32) (e : Fin E) :
    (colDims N E wf).start (ix2 e (0 : Fin 1)) idx (0 : Fin 2) = (idx (ix2 e (0 : Fin 1))).toInt := by
  unfold ScatterDims.start
  rw [dif_pos (show (0 : Fin 2) ∈ (colDims N E wf).scatterDimsToOperandDims from List.mem_singleton.mpr rfl)]
  have hsi : (colDims N E wf).siIdx (ix2 e (0 : Fin 1)) ⟨List.idxOf (0 : Fin 2) (colDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem col_start1 (wf : ScatterDims.WF ⟨2, ![N, 1]⟩ ⟨2, ![E, 1]⟩ ⟨2, ![E, 1]⟩ [1] [0] [0] 1)
    (idx : IVec ⟨2, ![E, 1]⟩ 32) (e : Fin E) :
    (colDims N E wf).start (ix2 e (0 : Fin 1)) idx (1 : Fin 2) = 0 := by
  unfold ScatterDims.start
  have hk : (1 : Fin 2) ∉ ([0] : List (Fin 2)) := by decide
  rw [dif_neg (show (1 : Fin 2) ∉ (colDims N E wf).scatterDimsToOperandDims from hk)]

theorem col_window0 (wf : ScatterDims.WF ⟨2, ![N, 1]⟩ ⟨2, ![E, 1]⟩ ⟨2, ![E, 1]⟩ [1] [0] [0] 1) (e : Fin E) :
    (colDims N E wf).window (ix2 e (0 : Fin 1)) (0 : Fin 2) = 0 := by
  unfold ScatterDims.window
  have hk : (0 : Fin 2) ∉ (List.finRange 2).filter (· ∉ ([0] : List (Fin 2))) := by decide
  rw [dif_neg (show (0 : Fin 2) ∉ (colDims N E wf).sKept from hk)]

theorem col_window1 (wf : ScatterDims.WF ⟨2, ![N, 1]⟩ ⟨2, ![E, 1]⟩ ⟨2, ![E, 1]⟩ [1] [0] [0] 1) (e : Fin E) :
    (colDims N E wf).window (ix2 e (0 : Fin 1)) (1 : Fin 2) = 0 := by
  unfold ScatterDims.window
  have hk : (1 : Fin 2) ∈ (List.finRange 2).filter (· ∉ ([0] : List (Fin 2))) := by decide
  rw [dif_pos (show (1 : Fin 2) ∈ (colDims N E wf).sKept from hk)]
  rfl

theorem col_resultIdx_iff (wf : ScatterDims.WF ⟨2, ![N, 1]⟩ ⟨2, ![E, 1]⟩ ⟨2, ![E, 1]⟩ [1] [0] [0] 1)
    (idx : IVec ⟨2, ![E, 1]⟩ 32) (e : Fin E) (r : Fin N) :
    (colDims N E wf).resultIdx? (ix2 e (0 : Fin 1)) idx = some (ix2 r (0 : Fin 1))
      ↔ (idx (ix2 e (0 : Fin 1))).toInt = (r.val : Int) := by
  rw [resultIdx?_eq_some_iff, Fin.forall_fin_two, col_start0, col_window0, col_start1, col_window1]
  show _ + ((0 : Nat) : Int) = (r.val : Int) ∧ (0 : Int) + ((0 : Nat) : Int) = ((0 : Nat) : Int) ↔ _
  omega

end Landing

def edgeEquiv (E : Nat) : (⟨1, ![E]⟩ : Shape).Idx ≃ (⟨2, ![E, 1]⟩ : Shape).Idx where
  toFun j := ix2 (j 0) (0 : Fin 1)
  invFun j := ix1 (j 0)
  left_inv j := (eq_ix1 j).symm
  right_inv j := by
    have h1 : (0 : Fin 1) = j 1 := Subsingleton.elim _ _
    exact (congrArg (ix2 (j 0)) h1).trans (eq_ix2 j).symm

theorem count_forms_eq {φ : FTy} {N E : Nat}
    (wfv : ScatterDims.WF ⟨1, ![N]⟩ ⟨2, ![E, 1]⟩ ⟨1, ![E]⟩ [] [0] [0] 1)
    (wfc : ScatterDims.WF ⟨2, ![N, 1]⟩ ⟨2, ![E, 1]⟩ ⟨2, ![E, 1]⟩ [1] [0] [0] 1)
    (z o : Ideal φ) (idx : IVec ⟨2, ![E, 1]⟩ 32) (r : Fin N) :
    Host.scatterAdd (F := Ideal) (φ := φ) (vecDims N E wfv) (fun _ => z) idx (fun _ => o) (ix1 r)
      = Host.scatterAdd (F := Ideal) (φ := φ) (colDims N E wfc) (fun _ => z) idx (fun _ => o) (ix2 r (0 : Fin 1)) := by
  unfold Host.scatterAdd
  rw [Ideal.hostScatterAdd_def, Ideal.hostScatterAdd_def]
  unfold Ideal.hostScatterAdd
  congr 1
  refine Finset.sum_equiv (edgeEquiv E) (fun j => ?_) (fun _ _ => rfl)
  obtain ⟨e, rfl⟩ : ∃ e : Fin E, j = ix1 e := ⟨j 0, eq_ix1 j⟩
  simp only [Finset.mem_filter, Finset.mem_univ, true_and]
  exact (vec_resultIdx_iff wfv idx e r).trans (col_resultIdx_iff wfc idx e r).symm

theorem col_across_apply {α : Type} {N C : Nat} (h : (⟨2, ![N, 1]⟩ : Shape).BroadcastsInDim ⟨2, ![N, C]⟩ ![0, 1])
    (v : (⟨2, ![N, 1]⟩ : Shape).Idx → α) (r : Fin N) (c : Fin C) :
    broadcastInDim ⟨2, ![N, C]⟩ ![0, 1] h v (ix2 r c) = v (ix2 r (0 : Fin 1)) := by
  simp only [broadcastInDim]
  congr 1
  funext a
  apply Fin.ext
  have hp := r.isLt
  match a with
  | ⟨0, _⟩ =>
    split
    · next h1 => change N = 1 at h1; show (0 : Nat) = r.val; omega
    · rfl
  | ⟨1, _⟩ =>
    split
    · rfl
    · next h1 => exact absurd rfl h1

section Mean
variable {N E : Nat} (sd : ScatterDims ⟨2, ![N, 64]⟩ ⟨2, ![E, 1]⟩ ⟨2, ![E, 64]⟩)
  (wfv : ScatterDims.WF ⟨1, ![N]⟩ ⟨2, ![E, 1]⟩ ⟨1, ![E]⟩ [] [0] [0] 1)
  (wfc : ScatterDims.WF ⟨2, ![N, 1]⟩ ⟨2, ![E, 1]⟩ ⟨2, ![E, 1]⟩ [1] [0] [0] 1)
  (dst : IVec ⟨1, ![E]⟩ 32) (rows : (⟨2, ![E, 64]⟩ : Shape).Idx → EReal)

/-- A float word spread over a whole shape. -/
abbrev splat (t : Shape) (w : BitVec FTy.f32.bits) : t.Idx → EReal :=
  broadcastInDim t ![] (bc0 t) (constant (F := Ideal) ⟨0, ![]⟩ .f32 w)

theorem splat_eq (t : Shape) (w : BitVec FTy.f32.bits) : splat t w = fun _ => Ideal.ofBits .f32 w :=
  funext fun j => broadcastInDim_scalar_apply _ _ j

/-- Edges per destination row, at least one, along the 64 columns: the count held as a vector. -/
def denV : (⟨2, ![N, 64]⟩ : Shape).Idx → EReal :=
  broadcastInDim ⟨2, ![N, 64]⟩ ![0, 1] (bcAcross N 64) (broadcastInDim ⟨2, ![N, 1]⟩ ![0] (bcCol N)
    (maximumf (F := Ideal) (φ := .f32)
      (Host.scatterAdd (F := Ideal) (φ := .f32) (vecDims N E wfv) (splat _ 0x00000000#32)
        (broadcastInDim ⟨2, ![E, 1]⟩ ![0] (bcCol E) dst) (splat _ 0x3F800000#32))
      (splat _ 0x3F800000#32)))

/-- The same, the count held as a column. -/
def denC : (⟨2, ![N, 64]⟩ : Shape).Idx → EReal :=
  broadcastInDim ⟨2, ![N, 64]⟩ ![0, 1] (bcAcross N 64)
    (maximumf (F := Ideal) (φ := .f32)
      (Host.scatterAdd (F := Ideal) (φ := .f32) (colDims N E wfc) (splat _ 0x00000000#32)
        (broadcastInDim ⟨2, ![E, 1]⟩ ![0] (bcCol E) dst) (splat _ 0x3F800000#32))
      (splat _ 0x3F800000#32))

theorem denV_eq_denC : denV wfv dst = denC wfc dst := by
  unfold denV denC
  funext i
  obtain ⟨r, c, rfl⟩ : ∃ (r : Fin N) (c : Fin 64), i = ix2 r c := ⟨i 0, i 1, eq_ix2 i⟩
  rw [col_across_apply, col_across_apply, col_apply, maximumf_apply, maximumf_apply]
  simp only [splat_eq]
  rw [count_forms_eq wfv wfc]

/-- The rows added up per destination row and divided by the count, in its two layouts. -/
def meanV : (⟨2, ![N, 64]⟩ : Shape).Idx → EReal :=
  Host.divf (F := Ideal) (φ := .f32)
    (Host.scatterAdd (F := Ideal) (φ := .f32) sd (splat _ 0x00000000#32) (broadcastInDim ⟨2, ![E, 1]⟩ ![0] (bcCol E) dst) rows)
    (denV wfv dst)

def meanC : (⟨2, ![N, 64]⟩ : Shape).Idx → EReal :=
  Host.divf (F := Ideal) (φ := .f32)
    (Host.scatterAdd (F := Ideal) (φ := .f32) sd (splat _ 0x00000000#32) (broadcastInDim ⟨2, ![E, 1]⟩ ![0] (bcCol E) dst) rows)
    (denC wfc dst)

theorem meanV_eq_meanC : meanV sd wfv dst rows = meanC sd wfc dst rows := by
  unfold meanV meanC
  rw [denV_eq_denC wfv wfc]

end Mean

end Cert.LibCount

end
-- ==== Proof.KI.HostVal.lean ====
import proofs.«421618_j42769284334197_1_alg».proof.Proof.Gen.KernelIdeal.Regions
import proofs.«421618_j42769284334197_1_alg».proof.Proof.Gen.KernelIdeal.Launch
import proofs.«421618_j42769284334197_1_alg».proof.Proof.Spec
import proofs.«421618_j42769284334197_1_alg».proof.Proof.LibCount
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Val

open Cert.KernelIdeal Cert.KernelIdeal.Gen Cert.LibCount Cert.LibRowGather
open Idealize.ShloMosaic Idealize.ShloMosaic.TcCoe Idealize.ShloMosaic.ValueIdx

/-- Gene rows (100000) averaged into disease rows (30000) over the edges, the count held as a vector. -/
def aggr0 (x : S100000x64.Idx → EReal) (src dst : IVec S1500000 32) : S30000x64.Idx → EReal :=
  meanV scatter_S30000x64_S1500000x1_S1500000x64_1_0_0_1 scatter_S30000_S1500000x1_S1500000_n_0_0_1_wf dst
    (Host.gather gather_S100000x64_S1500000x1_S1500000x64_1_0_n_n_0_1_164 x (idxCol 100000#32 src))

/-- Disease rows averaged into gene rows. -/
def aggr1 (x : S30000x64.Idx → EReal) (src dst : IVec S1500000 32) : S100000x64.Idx → EReal :=
  meanV scatter_S100000x64_S1500000x1_S1500000x64_1_0_0_1 scatter_S100000_S1500000x1_S1500000_n_0_0_1_wf dst
    (Host.gather gather_S30000x64_S1500000x1_S1500000x64_1_0_n_n_0_1_164 x (idxCol 30000#32 src))

/-- Gene rows taken at the labels, a row out of range filled. -/
def take0 (x : S100000x64.Idx → EReal) (idx : IVec S500000 32) : S500000x64.Idx → EReal :=
  takeFill 100000#32 99999#32 idx (Host.gather gather_S100000x64_S500000x1_S500000x64_1_0_n_n_0_1_164 x) (splat _ 0x7FC00000#32)

/-- Disease rows taken at the labels. -/
def take1 (x : S30000x64.Idx → EReal) (idx : IVec S500000 32) : S500000x64.Idx → EReal :=
  takeFill 30000#32 29999#32 idx (Host.gather gather_S30000x64_S500000x1_S500000x64_1_0_n_n_0_1_164 x) (splat _ 0x7FC00000#32)

section Stretches

variable (W : Valuation τ sig (Elt Ideal))

/-- A 64-vector reshaped to one row is the bias row. -/
theorem biasRow_eq (b : S64.Idx → EReal) : shapeCast S1x64 b shapeCasts_S64_S1x64 = Cert.Spec.biasRow b :=
  funext fun i => (congrArg _ (eq_ix2 i)).trans (shapeCast_a_1a_apply b shapeCasts_S64_S1x64 (i 0) (i 1))

set_option maxHeartbeats 4000000 in
theorem after0_v18 : (StableHlo.after hostOps0 W (Proc.devRef .tc main_v18) : S30000x64.Idx → EReal) =
    aggr0 (W (Proc.devRef .tc main_arg0)) (W (Proc.devRef .tc main_arg14)) (W (Proc.devRef .tc main_arg15)) := by
  after_results; rfl

set_option maxHeartbeats 4000000 in
theorem after0_v19 : (StableHlo.after hostOps0 W (Proc.devRef .tc main_v19) : S1x64.Idx → EReal) =
    Cert.Spec.biasRow (W (Proc.devRef .tc main_arg4)) := by
  after_results; exact biasRow_eq _

set_option maxHeartbeats 4000000 in
theorem after1_v39 : (StableHlo.after hostOps1 W (Proc.devRef .tc main_v39) : S100000x64.Idx → EReal) =
    aggr1 (W (Proc.devRef .tc main_arg1)) (W (Proc.devRef .tc main_arg15)) (W (Proc.devRef .tc main_arg14)) := by
  after_results; rfl

set_option maxHeartbeats 4000000 in
theorem after1_v40 : (StableHlo.after hostOps1 W (Proc.devRef .tc main_v40) : S1x64.Idx → EReal) =
    Cert.Spec.biasRow (W (Proc.devRef .tc main_arg7)) := by
  after_results; exact biasRow_eq _

set_option maxHeartbeats 4000000 in
theorem after2_v60 : (StableHlo.after hostOps2 W (Proc.devRef .tc main_v60) : S30000x64.Idx → EReal) =
    aggr0 (W (Proc.devRef .tc main_v41)) (W (Proc.devRef .tc main_arg14)) (W (Proc.devRef .tc main_arg15)) := by
  after_results; rfl

set_option maxHeartbeats 4000000 in
theorem after2_v61 : (StableHlo.after hostOps2 W (Proc.devRef .tc main_v61) : S1x64.Idx → EReal) =
    Cert.Spec.biasRow (W (Proc.devRef .tc main_arg10)) := by
  after_results; exact biasRow_eq _

set_option maxHeartbeats 4000000 in
theorem after3_v81 : (StableHlo.after hostOps3 W (Proc.devRef .tc main_v81) : S100000x64.Idx → EReal) =
    aggr1 (W (Proc.devRef .tc main_v20)) (W (Proc.devRef .tc main_arg15)) (W (Proc.devRef .tc main_arg14)) := by
  after_results; rfl

set_option maxHeartbeats 4000000 in
theorem after3_v82 : (StableHlo.after hostOps3 W (Proc.devRef .tc main_v82) : S1x64.Idx → EReal) =
    Cert.Spec.biasRow (W (Proc.devRef .tc main_arg13)) := by
  after_results; exact biasRow_eq _

set_option maxHeartbeats 4000000 in
theorem after4_v84 : (StableHlo.after hostOps4 W (Proc.devRef .tc main_v84) : S500000x64.Idx → EReal) =
    take0 (W (Proc.devRef .tc main_v83)) (W (Proc.devRef .tc main_arg16)) := by
  after_results
  simp only [StableHlo.TRef.ofBuf, StableHlo.TRef.toBuf, cast_eq]
  rfl

set_option maxHeartbeats 4000000 in
theorem after4_1_v85 : (StableHlo.after hostOps4_1 W (Proc.devRef .tc main_v85) : S500000x64.Idx → EReal) =
    take1 (W (Proc.devRef .tc main_v62)) (W (Proc.devRef .tc main_arg17)) := by
  after_results
  simp only [StableHlo.TRef.ofBuf, StableHlo.TRef.toBuf, cast_eq]
  rfl

theorem rowMajor_col (i : S500000.Idx) :
    (S500000x1.rowMajor (ix2 (i 0) (0 : Fin 1))).val = (S500000.rowMajor i).val := by
  rw [Shape.rowMajor_val_two, Shape.rowMajor_val_one]
  show (i 0).val * 1 + 0 = (i 0).val
  omega

theorem after5_v87 : (StableHlo.after hostOps5 W (Proc.devRef .tc main_v87) : S500000.Idx → EReal) =
    fun i => (W (Proc.devRef .tc main_v86) : S500000x1.Idx → EReal) (ix2 (i 0) (0 : Fin 1)) := by
  after_results
  funext i
  exact shapeCast_apply (s := S500000x1) (t := S500000) (W (Proc.devRef .tc main_v86)) shapeCasts_S500000x1_S500000 i
    (ix2 (i 0) (0 : Fin 1)) (rowMajor_col i)

end Stretches

section Between

variable (m : (ℓ : Loc nD τ sig) → Buf (Elt Ideal) ℓ) (outs : Cert.KernelIdeal.Gen.Outs (F := Ideal)) (c : Dev nD)

section Keep
variable (r : Ref sig .tc) (h1 : r ∉ hostOps0_W := by decide) (h2 : r ∉ ([main_v20] : List (Ref sig .tc)) := by decide)
  (h3 : r ∉ hostOps1_W := by decide) (h4 : r ∉ ([main_v41] : List (Ref sig .tc)) := by decide)
  (h5 : r ∉ hostOps2_W := by decide) (h6 : r ∉ ([main_v62] : List (Ref sig .tc)) := by decide)
  (h7 : r ∉ hostOps3_W := by decide) (h8 : r ∉ ([main_v83] : List (Ref sig .tc)) := by decide)
  (h9 : r ∉ hostOps4_W := by decide)

include h1 in
/-- An array that no item of the program has written so far holds its launch contents. -/
theorem keep1 : V1 m c r = m ((c : Thread nD τ).loc r) := (V1_of m c r h1).trans rfl
include h1 h2 in
theorem keep2 : V2 m outs c r = m ((c : Thread nD τ).loc r) := (V2_of m outs c r h2).trans (keep1 m c r h1)
include h1 h2 h3 in
theorem keep3 : V3 m outs c r = m ((c : Thread nD τ).loc r) := (V3_of m outs c r h3).trans (keep2 m outs c r h1 h2)
include h1 h2 h3 h4 in
theorem keep4 : V4 m outs c r = m ((c : Thread nD τ).loc r) := (V4_of m outs c r h4).trans (keep3 m outs c r h1 h2 h3)
include h1 h2 h3 h4 h5 in
theorem keep5 : V5 m outs c r = m ((c : Thread nD τ).loc r) := (V5_of m outs c r h5).trans (keep4 m outs c r h1 h2 h3 h4)
include h1 h2 h3 h4 h5 h6 in
theorem keep6 : V6 m outs c r = m ((c : Thread nD τ).loc r) := (V6_of m outs c r h6).trans (keep5 m outs c r h1 h2 h3 h4 h5)
include h1 h2 h3 h4 h5 h6 h7 in
theorem keep7 : V7 m outs c r = m ((c : Thread nD τ).loc r) := (V7_of m outs c r h7).trans (keep6 m outs c r h1 h2 h3 h4 h5 h6)
include h1 h2 h3 h4 h5 h6 h7 h8 in
theorem keep8 : V8 m outs c r = m ((c : Thread nD τ).loc r) :=
  (V8_of m outs c r h8).trans (keep7 m outs c r h1 h2 h3 h4 h5 h6 h7)
include h1 h2 h3 h4 h5 h6 h7 h8 h9 in
theorem keep9 : V9 m outs c r = m ((c : Thread nD τ).loc r) :=
  (V9_of m outs c r h9).trans (keep8 m outs c r h1 h2 h3 h4 h5 h6 h7 h8)

end Keep

/-- What a region left stays until it is read: the next three items do not write it. -/
theorem V5_v20 : V5 m outs c main_v20 = outs 2 main_v20 c :=
  (V5_of m outs c main_v20 (by decide)).trans <| (V4_of m outs c main_v20 (by decide)).trans <|
    (V3_of m outs c main_v20 (by decide)).trans (Function.update_self _ _ _)
theorem V7_v41 : V7 m outs c main_v41 = outs 4 main_v41 c :=
  (V7_of m outs c main_v41 (by decide)).trans <| (V6_of m outs c main_v41 (by decide)).trans <|
    (V5_of m outs c main_v41 (by decide)).trans (Function.update_self _ _ _)
theorem V9_v62 : V9 m outs c main_v62 = outs 6 main_v62 c :=
  (V9_of m outs c main_v62 (by decide)).trans <| (V8_of m outs c main_v62 (by decide)).trans <|
    (V7_of m outs c main_v62 (by decide)).trans (Function.update_self _ _ _)

theorem V1_v18 : (V1 m c main_v18 : S30000x64.Idx → EReal) = aggr0 (m ((c : Thread nD τ).loc main_arg0)) (m ((c : Thread nD τ).loc main_arg14)) (m ((c : Thread nD τ).loc main_arg15)) :=
  after0_v18 (V0 m c)
theorem V1_v19 : (V1 m c main_v19 : S1x64.Idx → EReal) = Cert.Spec.biasRow (m ((c : Thread nD τ).loc main_arg4)) :=
  after0_v19 (V0 m c)
theorem V3_v39 : (V3 m outs c main_v39 : S100000x64.Idx → EReal) = aggr1 (m ((c : Thread nD τ).loc main_arg1)) (m ((c : Thread nD τ).loc main_arg15)) (m ((c : Thread nD τ).loc main_arg14)) :=
  (after1_v39 (V2 m outs c)).trans (by rw [keep2 m outs c main_arg1, keep2 m outs c main_arg15, keep2 m outs c main_arg14])
theorem V3_v40 : (V3 m outs c main_v40 : S1x64.Idx → EReal) = Cert.Spec.biasRow (m ((c : Thread nD τ).loc main_arg7)) :=
  (after1_v40 (V2 m outs c)).trans (by rw [keep2 m outs c main_arg7])
theorem V5_v60 : (V5 m outs c main_v60 : S30000x64.Idx → EReal) = aggr0 (outs 4 main_v41 c) (m ((c : Thread nD τ).loc main_arg14)) (m ((c : Thread nD τ).loc main_arg15)) :=
  (after2_v60 (V4 m outs c)).trans
    (by rw [show V4 m outs c main_v41 = outs 4 main_v41 c from Function.update_self _ _ _, keep4 m outs c main_arg14, keep4 m outs c main_arg15])
theorem V5_v61 : (V5 m outs c main_v61 : S1x64.Idx → EReal) = Cert.Spec.biasRow (m ((c : Thread nD τ).loc main_arg10)) :=
  (after2_v61 (V4 m outs c)).trans (by rw [keep4 m outs c main_arg10])
theorem V7_v81 : (V7 m outs c main_v81 : S100000x64.Idx → EReal) = aggr1 (outs 2 main_v20 c) (m ((c : Thread nD τ).loc main_arg15)) (m ((c : Thread nD τ).loc main_arg14)) :=
  (after3_v81 (V6 m outs c)).trans
    (by rw [(V6_of m outs c main_v20 (by decide)).trans (V5_v20 m outs c), keep6 m outs c main_arg15, keep6 m outs c main_arg14])
theorem V7_v82 : (V7 m outs c main_v82 : S1x64.Idx → EReal) = Cert.Spec.biasRow (m ((c : Thread nD τ).loc main_arg13)) :=
  (after3_v82 (V6 m outs c)).trans (by rw [keep6 m outs c main_arg13])
theorem V10_v84 : (V10 m outs c main_v84 : S500000x64.Idx → EReal) = take0 (outs 8 main_v83 c) (m ((c : Thread nD τ).loc main_arg16)) :=
  (V10_of m outs c main_v84 (by decide)).trans <| (after4_v84 (V8 m outs c)).trans
    (by rw [show V8 m outs c main_v83 = outs 8 main_v83 c from Function.update_self _ _ _, keep8 m outs c main_arg16])
theorem V10_v85 : (V10 m outs c main_v85 : S500000x64.Idx → EReal) = take1 (outs 6 main_v62 c) (m ((c : Thread nD τ).loc main_arg17)) :=
  (after4_1_v85 (V9 m outs c)).trans (by rw [V9_v62, keep9 m outs c main_arg17])

end Between

end Cert.KernelIdeal.Val

end
-- ==== Proof.KI.CombineAt.lean ====
import proofs.«421618_j42769284334197_1_alg».proof.Proof.Gen.KernelIdeal.Skeleton
import proofs.«421618_j42769284334197_1_alg».proof.Proof.Spec
import Idealize.ShloMosaic.Lib.KernelVsHost
import Idealize.ShloMosaic.Lib.StackMember
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.ValueIdx Idealize.ShloMosaic.StackMember
open scoped BigOperators

theorem hz : (![0, 0] : Fin 2 → Nat) = fun _ => 0 := funext fun a => by fin_cases a <;> rfl

-- A block times a weight, at row p and column q: the sum over the 64 shared coordinates.
theorem mm_apply (l : FVec Ideal S2000x64 .f32) (r : FVec Ideal S64x64 .f32) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  (congrFun (matmul_zero_eq_dotGeneral _ none l r) _).trans (dotGeneral_plain_apply none l r p q)

-- The two block products plus the bias row: the layer's formula on the blocks, entry by entry.
theorem pay_lin (x0 x1 : Vec Ideal S2000x64 .f32) (x2 x3 : Vec Ideal S64x64 .f32) (x4 : Vec Ideal S1x64 .f32) (i : S2000x64.Idx) :
    k2_pay1 (F := Ideal) x0 x2 x1 x3 x4 i = Cert.Spec.combine false x0 x1 x2 x3 x4 i := by
  obtain ⟨p, q, rfl⟩ : ∃ (p : Fin 2000) (q : Fin 64), i = ix2 p q := ⟨i 0, i 1, eq_ix2 i⟩
  unfold k2_pay1
  simp only [shapeCast_self]
  rw [addf_apply, addf_apply, mm_apply, mm_apply, broadcastTo_1b_ab_apply]
  rfl

-- The same under the maximum with zero.
theorem pay_relu (x0 x1 : Vec Ideal S2000x64 .f32) (x2 x3 : Vec Ideal S64x64 .f32) (x4 : Vec Ideal S1x64 .f32) (i : S2000x64.Idx) :
    k0_pay1 (F := Ideal) x0 x2 x1 x3 x4 i = Cert.Spec.combine true x0 x1 x2 x3 x4 i := by
  obtain ⟨p, q, rfl⟩ : ∃ (p : Fin 2000) (q : Fin 64), i = ix2 p q := ⟨i 0, i 1, eq_ix2 i⟩
  unfold k0_pay1
  simp only [shapeCast_self]
  rw [maximumf_apply, broadcast_apply, addf_apply, addf_apply, mm_apply, mm_apply, broadcastTo_1b_ab_apply]
  exact congrArg (max _) Ideal.ofBits_zero_f32

-- An entry of the combine depends on one row of each row array, one column of each weight and one entry of the bias.
theorem combine_rows {relu : Bool} {n N : Nat} (a0 a1 : (⟨2, ![n, 64]⟩ : Shape).Idx → EReal) (A0 A1 : (⟨2, ![N, 64]⟩ : Shape).Idx → EReal)
    (w2 w3 W2 W3 : (⟨2, ![64, 64]⟩ : Shape).Idx → EReal) (b B : (⟨2, ![1, 64]⟩ : Shape).Idx → EReal)
    (i : (⟨2, ![n, 64]⟩ : Shape).Idx) (I : (⟨2, ![N, 64]⟩ : Shape).Idx) (hq : i 1 = I 1)
    (h0 : ∀ k, a0 (ix2 (i 0) k) = A0 (ix2 (I 0) k)) (h1 : ∀ k, a1 (ix2 (i 0) k) = A1 (ix2 (I 0) k))
    (h2 : ∀ j, w2 j = W2 j) (h3 : ∀ j, w3 j = W3 j) (h4 : ∀ j, b j = B j) :
    Cert.Spec.combine relu a0 a1 w2 w3 b i = Cert.Spec.combine relu A0 A1 W2 W3 B I := by
  unfold Cert.Spec.combine Cert.Spec.combineAt
  simp only [h0, h1, h2, h3, h4, hq]

end Cert.KernelIdeal.Val

end
-- ==== Proof.KI.SageVal0.lean ====
import proofs.«421618_j42769284334197_1_alg».proof.Proof.KI.Sage0
import proofs.«421618_j42769284334197_1_alg».proof.Proof.KI.CombineAt

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev G0 (c : Dev nD) : S30000x64.Idx → EReal :=
  Cert.Spec.combine true (V c main_v18 : S30000x64.Idx → EReal) (V c main_arg1 : S30000x64.Idx → EReal)
    (V c main_arg2 : S64x64.Idx → EReal) (V c main_arg3 : S64x64.Idx → EReal) (V c main_v19 : S1x64.Idx → EReal)

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

-- Entry by entry: row p of a row block at point t is row 2000 t + p of its array.
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  obtain ⟨e0, e1, e2, e3, e4, e5, e6, e7, e8, e9, e10, e11⟩ := idx_facts0 t
  funext j
  show out0_5 (F := Ideal) _ _ _ _ _ _ = G0 V c (((cfg0.win 5).blk t).view.emb j)
  unfold out0_5
  rw [View.canon_unit_zero hz]
  simp only [View.ld_unit_zero (S := S2000x64) hz, View.ld_unit_zero (S := S64x64) hz, View.ld_unit_zero (S := S1x64) hz]
  refine (pay_relu _ _ _ _ _ _).trans (combine_rows _ _ _ _ _ _ _ _ _ _ _ _
    (Fin.ext (show (j 1).val = win0_5.index t (1 : Fin 2) * 64 + 1 * (j 1).val by omega))
    (fun k => congrArg (V c main_v18 : S30000x64.Idx → EReal) (Shape.idx_ext₂
      (show win0_0.index t (0 : Fin 2) * 2000 + 1 * (j 0).val = win0_5.index t (0 : Fin 2) * 2000 + 1 * (j 0).val by omega)
      (show win0_0.index t (1 : Fin 2) * 64 + 1 * k.val = k.val by omega)))
    (fun k => congrArg (V c main_arg1 : S30000x64.Idx → EReal) (Shape.idx_ext₂
      (show win0_1.index t (0 : Fin 2) * 2000 + 1 * (j 0).val = win0_5.index t (0 : Fin 2) * 2000 + 1 * (j 0).val by omega)
      (show win0_1.index t (1 : Fin 2) * 64 + 1 * k.val = k.val by omega)))
    (fun i => congrArg (V c main_arg2 : S64x64.Idx → EReal) (Shape.idx_ext₂
      (show win0_2.index t (0 : Fin 2) * 64 + 1 * (i 0).val = (i 0).val by omega)
      (show win0_2.index t (1 : Fin 2) * 64 + 1 * (i 1).val = (i 1).val by omega)))
    (fun i => congrArg (V c main_arg3 : S64x64.Idx → EReal) (Shape.idx_ext₂
      (show win0_3.index t (0 : Fin 2) * 64 + 1 * (i 0).val = (i 0).val by omega)
      (show win0_3.index t (1 : Fin 2) * 64 + 1 * (i 1).val = (i 1).val by omega)))
    (fun i => congrArg (V c main_v19 : S1x64.Idx → EReal) (Shape.idx_ext₂
      (show win0_4.index t (0 : Fin 2) * 1 + 1 * (i 0).val = (i 0).val by omega)
      (show win0_4.index t (1 : Fin 2) * 64 + 1 * (i 1).val = (i 1).val by omega))))

-- Row r lies in block r / 2000.
theorem covered0 (i : S30000x64.Idx) : ∃ t : Fin cfg0.N, (cfg0.win 5).flush t = true ∧ i ∈ ((cfg0.win 5).blk t).view.set := by
  have hN : grid0.N = 15 := N_0
  have hi0 := idx2_lt0 i
  have hi1 := idx2_lt1 i
  obtain ⟨t, ht⟩ : ∃ t : Fin grid0.N, t.val = (i 0).val / 2000 := ⟨⟨_, by omega⟩, rfl⟩
  obtain ⟨-, -, -, -, -, -, -, -, -, -, e10, e11⟩ := idx_facts0 t
  refine ⟨t, flush0_5 t, ?_⟩
  show i ∈ ((View.whole main_v20).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

theorem final0 (c : Dev nD) :
    ((dat0 (F := Ideal) V c).arrAt 5 cfg0.N : S30000x64.Idx → EReal)
      = Cert.Spec.combine true (V c main_v18) (V c main_arg1) (V c main_arg2) (V c main_arg3) (V c main_v19) :=
  (dat0 (F := Ideal) V c).arrAt_eq_of_cover 5 (G0 V c) (fun t _ => flushed0_eq V c t) covered0

end Cert.KernelIdeal.Val

end
-- ==== Proof.KI.SageVal1.lean ====
import proofs.«421618_j42769284334197_1_alg».proof.Proof.KI.Sage1
import proofs.«421618_j42769284334197_1_alg».proof.Proof.KI.CombineAt

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev G1 (c : Dev nD) : S100000x64.Idx → EReal :=
  Cert.Spec.combine true (V c main_v39 : S100000x64.Idx → EReal) (V c main_arg0 : S100000x64.Idx → EReal)
    (V c main_arg5 : S64x64.Idx → EReal) (V c main_arg6 : S64x64.Idx → EReal) (V c main_v40 : S1x64.Idx → EReal)

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

-- Entry by entry: row p of a row block at point t is row 2000 t + p of its array.
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  obtain ⟨e0, e1, e2, e3, e4, e5, e6, e7, e8, e9, e10, e11⟩ := idx_facts1 t
  funext j
  show out1_5 (F := Ideal) _ _ _ _ _ _ = G1 V c (((cfg1.win 5).blk t).view.emb j)
  unfold out1_5
  rw [View.canon_unit_zero hz]
  simp only [View.ld_unit_zero (S := S2000x64) hz, View.ld_unit_zero (S := S64x64) hz, View.ld_unit_zero (S := S1x64) hz]
  refine (pay_relu _ _ _ _ _ _).trans (combine_rows _ _ _ _ _ _ _ _ _ _ _ _
    (Fin.ext (show (j 1).val = win1_5.index t (1 : Fin 2) * 64 + 1 * (j 1).val by omega))
    (fun k => congrArg (V c main_v39 : S100000x64.Idx → EReal) (Shape.idx_ext₂
      (show win1_0.index t (0 : Fin 2) * 2000 + 1 * (j 0).val = win1_5.index t (0 : Fin 2) * 2000 + 1 * (j 0).val by omega)
      (show win1_0.index t (1 : Fin 2) * 64 + 1 * k.val = k.val by omega)))
    (fun k => congrArg (V c main_arg0 : S100000x64.Idx → EReal) (Shape.idx_ext₂
      (show win1_1.index t (0 : Fin 2) * 2000 + 1 * (j 0).val = win1_5.index t (0 : Fin 2) * 2000 + 1 * (j 0).val by omega)
      (show win1_1.index t (1 : Fin 2) * 64 + 1 * k.val = k.val by omega)))
    (fun i => congrArg (V c main_arg5 : S64x64.Idx → EReal) (Shape.idx_ext₂
      (show win1_2.index t (0 : Fin 2) * 64 + 1 * (i 0).val = (i 0).val by omega)
      (show win1_2.index t (1 : Fin 2) * 64 + 1 * (i 1).val = (i 1).val by omega)))
    (fun i => congrArg (V c main_arg6 : S64x64.Idx → EReal) (Shape.idx_ext₂
      (show win1_3.index t (0 : Fin 2) * 64 + 1 * (i 0).val = (i 0).val by omega)
      (show win1_3.index t (1 : Fin 2) * 64 + 1 * (i 1).val = (i 1).val by omega)))
    (fun i => congrArg (V c main_v40 : S1x64.Idx → EReal) (Shape.idx_ext₂
      (show win1_4.index t (0 : Fin 2) * 1 + 1 * (i 0).val = (i 0).val by omega)
      (show win1_4.index t (1 : Fin 2) * 64 + 1 * (i 1).val = (i 1).val by omega))))

-- Row r lies in block r / 2000.
theorem covered1 (i : S100000x64.Idx) : ∃ t : Fin cfg1.N, (cfg1.win 5).flush t = true ∧ i ∈ ((cfg1.win 5).blk t).view.set := by
  have hN : grid1.N = 50 := N_1
  have hi0 := idx2_lt0 i
  have hi1 := idx2_lt1 i
  obtain ⟨t, ht⟩ : ∃ t : Fin grid1.N, t.val = (i 0).val / 2000 := ⟨⟨_, by omega⟩, rfl⟩
  obtain ⟨-, -, -, -, -, -, -, -, -, -, e10, e11⟩ := idx_facts1 t
  refine ⟨t, flush1_5 t, ?_⟩
  show i ∈ ((View.whole main_v41).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

theorem final1 (c : Dev nD) :
    ((dat1 (F := Ideal) V c).arrAt 5 cfg1.N : S100000x64.Idx → EReal)
      = Cert.Spec.combine true (V c main_v39) (V c main_arg0) (V c main_arg5) (V c main_arg6) (V c main_v40) :=
  (dat1 (F := Ideal) V c).arrAt_eq_of_cover 5 (G1 V c) (fun t _ => flushed1_eq V c t) covered1

end Cert.KernelIdeal.Val

end
-- ==== Proof.KI.SageVal2.lean ====
import proofs.«421618_j42769284334197_1_alg».proof.Proof.KI.Sage2
import proofs.«421618_j42769284334197_1_alg».proof.Proof.KI.CombineAt

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev G2 (c : Dev nD) : S30000x64.Idx → EReal :=
  Cert.Spec.combine false (V c main_v60 : S30000x64.Idx → EReal) (V c main_v20 : S30000x64.Idx → EReal)
    (V c main_arg8 : S64x64.Idx → EReal) (V c main_arg9 : S64x64.Idx → EReal) (V c main_v61 : S1x64.Idx → EReal)

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

-- Entry by entry: row p of a row block at point t is row 2000 t + p of its array.
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  obtain ⟨e0, e1, e2, e3, e4, e5, e6, e7, e8, e9, e10, e11⟩ := idx_facts2 t
  funext j
  show out2_5 (F := Ideal) _ _ _ _ _ _ = G2 V c (((cfg2.win 5).blk t).view.emb j)
  unfold out2_5
  rw [View.canon_unit_zero hz]
  simp only [View.ld_unit_zero (S := S2000x64) hz, View.ld_unit_zero (S := S64x64) hz, View.ld_unit_zero (S := S1x64) hz]
  refine (pay_lin _ _ _ _ _ _).trans (combine_rows _ _ _ _ _ _ _ _ _ _ _ _
    (Fin.ext (show (j 1).val = win2_5.index t (1 : Fin 2) * 64 + 1 * (j 1).val by omega))
    (fun k => congrArg (V c main_v60 : S30000x64.Idx → EReal) (Shape.idx_ext₂
      (show win2_0.index t (0 : Fin 2) * 2000 + 1 * (j 0).val = win2_5.index t (0 : Fin 2) * 2000 + 1 * (j 0).val by omega)
      (show win2_0.index t (1 : Fin 2) * 64 + 1 * k.val = k.val by omega)))
    (fun k => congrArg (V c main_v20 : S30000x64.Idx → EReal) (Shape.idx_ext₂
      (show win2_1.index t (0 : Fin 2) * 2000 + 1 * (j 0).val = win2_5.index t (0 : Fin 2) * 2000 + 1 * (j 0).val by omega)
      (show win2_1.index t (1 : Fin 2) * 64 + 1 * k.val = k.val by omega)))
    (fun i => congrArg (V c main_arg8 : S64x64.Idx → EReal) (Shape.idx_ext₂
      (show win2_2.index t (0 : Fin 2) * 64 + 1 * (i 0).val = (i 0).val by omega)
      (show win2_2.index t (1 : Fin 2) * 64 + 1 * (i 1).val = (i 1).val by omega)))
    (fun i => congrArg (V c main_arg9 : S64x64.Idx → EReal) (Shape.idx_ext₂
      (show win2_3.index t (0 : Fin 2) * 64 + 1 * (i 0).val = (i 0).val by omega)
      (show win2_3.index t (1 : Fin 2) * 64 + 1 * (i 1).val = (i 1).val by omega)))
    (fun i => congrArg (V c main_v61 : S1x64.Idx → EReal) (Shape.idx_ext₂
      (show win2_4.index t (0 : Fin 2) * 1 + 1 * (i 0).val = (i 0).val by omega)
      (show win2_4.index t (1 : Fin 2) * 64 + 1 * (i 1).val = (i 1).val by omega))))

-- Row r lies in block r / 2000.
theorem covered2 (i : S30000x64.Idx) : ∃ t : Fin cfg2.N, (cfg2.win 5).flush t = true ∧ i ∈ ((cfg2.win 5).blk t).view.set := by
  have hN : grid2.N = 15 := N_2
  have hi0 := idx2_lt0 i
  have hi1 := idx2_lt1 i
  obtain ⟨t, ht⟩ : ∃ t : Fin grid2.N, t.val = (i 0).val / 2000 := ⟨⟨_, by omega⟩, rfl⟩
  obtain ⟨-, -, -, -, -, -, -, -, -, -, e10, e11⟩ := idx_facts2 t
  refine ⟨t, flush2_5 t, ?_⟩
  show i ∈ ((View.whole main_v62).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

theorem final2 (c : Dev nD) :
    ((dat2 (F := Ideal) V c).arrAt 5 cfg2.N : S30000x64.Idx → EReal)
      = Cert.Spec.combine false (V c main_v60) (V c main_v20) (V c main_arg8) (V c main_arg9) (V c main_v61) :=
  (dat2 (F := Ideal) V c).arrAt_eq_of_cover 5 (G2 V c) (fun t _ => flushed2_eq V c t) covered2

end Cert.KernelIdeal.Val

end
-- ==== Proof.KI.SageVal3.lean ====
import proofs.«421618_j42769284334197_1_alg».proof.Proof.KI.Sage3
import proofs.«421618_j42769284334197_1_alg».proof.Proof.KI.CombineAt

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev G3 (c : Dev nD) : S100000x64.Idx → EReal :=
  Cert.Spec.combine false (V c main_v81 : S100000x64.Idx → EReal) (V c main_v41 : S100000x64.Idx → EReal)
    (V c main_arg11 : S64x64.Idx → EReal) (V c main_arg12 : S64x64.Idx → EReal) (V c main_v82 : S1x64.Idx → EReal)

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

-- Entry by entry: row p of a row block at point t is row 2000 t + p of its array.
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  obtain ⟨e0, e1, e2, e3, e4, e5, e6, e7, e8, e9, e10, e11⟩ := idx_facts3 t
  funext j
  show out3_5 (F := Ideal) _ _ _ _ _ _ = G3 V c (((cfg3.win 5).blk t).view.emb j)
  unfold out3_5
  rw [View.canon_unit_zero hz]
  simp only [View.ld_unit_zero (S := S2000x64) hz, View.ld_unit_zero (S := S64x64) hz, View.ld_unit_zero (S := S1x64) hz]
  refine (pay_lin _ _ _ _ _ _).trans (combine_rows _ _ _ _ _ _ _ _ _ _ _ _
    (Fin.ext (show (j 1).val = win3_5.index t (1 : Fin 2) * 64 + 1 * (j 1).val by omega))
    (fun k => congrArg (V c main_v81 : S100000x64.Idx → EReal) (Shape.idx_ext₂
      (show win3_0.index t (0 : Fin 2) * 2000 + 1 * (j 0).val = win3_5.index t (0 : Fin 2) * 2000 + 1 * (j 0).val by omega)
      (show win3_0.index t (1 : Fin 2) * 64 + 1 * k.val = k.val by omega)))
    (fun k => congrArg (V c main_v41 : S100000x64.Idx → EReal) (Shape.idx_ext₂
      (show win3_1.index t (0 : Fin 2) * 2000 + 1 * (j 0).val = win3_5.index t (0 : Fin 2) * 2000 + 1 * (j 0).val by omega)
      (show win3_1.index t (1 : Fin 2) * 64 + 1 * k.val = k.val by omega)))
    (fun i => congrArg (V c main_arg11 : S64x64.Idx → EReal) (Shape.idx_ext₂
      (show win3_2.index t (0 : Fin 2) * 64 + 1 * (i 0).val = (i 0).val by omega)
      (show win3_2.index t (1 : Fin 2) * 64 + 1 * (i 1).val = (i 1).val by omega)))
    (fun i => congrArg (V c main_arg12 : S64x64.Idx → EReal) (Shape.idx_ext₂
      (show win3_3.index t (0 : Fin 2) * 64 + 1 * (i 0).val = (i 0).val by omega)
      (show win3_3.index t (1 : Fin 2) * 64 + 1 * (i 1).val = (i 1).val by omega)))
    (fun i => congrArg (V c main_v82 : S1x64.Idx → EReal) (Shape.idx_ext₂
      (show win3_4.index t (0 : Fin 2) * 1 + 1 * (i 0).val = (i 0).val by omega)
      (show win3_4.index t (1 : Fin 2) * 64 + 1 * (i 1).val = (i 1).val by omega))))

-- Row r lies in block r / 2000.
theorem covered3 (i : S100000x64.Idx) : ∃ t : Fin cfg3.N, (cfg3.win 5).flush t = true ∧ i ∈ ((cfg3.win 5).blk t).view.set := by
  have hN : grid3.N = 50 := N_3
  have hi0 := idx2_lt0 i
  have hi1 := idx2_lt1 i
  obtain ⟨t, ht⟩ : ∃ t : Fin grid3.N, t.val = (i 0).val / 2000 := ⟨⟨_, by omega⟩, rfl⟩
  obtain ⟨-, -, -, -, -, -, -, -, -, -, e10, e11⟩ := idx_facts3 t
  refine ⟨t, flush3_5 t, ?_⟩
  show i ∈ ((View.whole main_v83).slice (win3_5.rect t)).set
  rw [View.set_slice_whole, Rect.mem_set_unit]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

theorem final3 (c : Dev nD) :
    ((dat3 (F := Ideal) V c).arrAt 5 cfg3.N : S100000x64.Idx → EReal)
      = Cert.Spec.combine false (V c main_v81) (V c main_v41) (V c main_arg11) (V c main_arg12) (V c main_v82) :=
  (dat3 (F := Ideal) V c).arrAt_eq_of_cover 5 (G3 V c) (fun t _ => flushed3_eq V c t) covered3

end Cert.KernelIdeal.Val

end
-- ==== Proof.RefVal.lean ====
import proofs.«421618_j42769284334197_1_alg».proof.Proof.Gen.ReferenceIdeal.Run
import proofs.«421618_j42769284334197_1_alg».proof.Proof.Gen.ReferenceIdeal.Read
import proofs.«421618_j42769284334197_1_alg».proof.Proof.Spec
import proofs.«421618_j42769284334197_1_alg».proof.Proof.LibCount

noncomputable section

namespace Cert.RefVal

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.LibCount Cert.LibRowGather
open scoped BigOperators

/-- Gene rows (100000) averaged into disease rows (30000) over the edges, the count held as a column. -/
def aggr0 (x : S100000x64.Idx → EReal) (src dst : IVec S1500000 32) : S30000x64.Idx → EReal :=
  meanC scatter_S30000x64_S1500000x1_S1500000x64_1_0_0_1 scatter_S30000x1_S1500000x1_S1500000x1_1_0_0_1_wf dst
    (Host.gather gather_S100000x64_S1500000x1_S1500000x64_1_0_n_n_0_1_164 x (idxCol 100000#32 src))

/-- Disease rows averaged into gene rows. -/
def aggr1 (x : S30000x64.Idx → EReal) (src dst : IVec S1500000 32) : S100000x64.Idx → EReal :=
  meanC scatter_S100000x64_S1500000x1_S1500000x64_1_0_0_1 scatter_S100000x1_S1500000x1_S1500000x1_1_0_0_1_wf dst
    (Host.gather gather_S30000x64_S1500000x1_S1500000x64_1_0_n_n_0_1_164 x (idxCol 30000#32 src))

/-- Gene rows taken at the labels. -/
def take0 (x : S100000x64.Idx → EReal) (idx : IVec S500000 32) : S500000x64.Idx → EReal :=
  Host.gather gather_S100000x64_S500000x1_S500000x64_1_0_n_n_0_1_164 x (idxCol 100000#32 idx)

/-- Disease rows taken at the labels. -/
def take1 (x : S30000x64.Idx → EReal) (idx : IVec S500000 32) : S500000x64.Idx → EReal :=
  Host.gather gather_S30000x64_S500000x1_S500000x64_1_0_n_n_0_1_164 x (idxCol 30000#32 idx)

def refOut (a0 : S100000x64.Idx → EReal) (a1 : S30000x64.Idx → EReal) (a2 a3 : S64x64.Idx → EReal)
    (a4 : S64.Idx → EReal) (a5 a6 : S64x64.Idx → EReal) (a7 : S64.Idx → EReal) (a8 a9 : S64x64.Idx → EReal)
    (a10 : S64.Idx → EReal) (a11 a12 : S64x64.Idx → EReal) (a13 : S64.Idx → EReal)
    (a14 a15 : IVec S1500000 32) (a16 a17 : IVec S500000 32) : S500000.Idx → EReal :=
  Cert.Spec.rowdotVec (take0 (Cert.Spec.combine false (aggr1 (Cert.Spec.combine true (aggr0 a0 a14 a15) a1 a2 a3 (Cert.Spec.biasRow a4)) a15 a14) (Cert.Spec.combine true (aggr1 a1 a15 a14) a0 a5 a6 (Cert.Spec.biasRow a7)) a11 a12 (Cert.Spec.biasRow a13)) a16) (take1 (Cert.Spec.combine false (aggr0 (Cert.Spec.combine true (aggr1 a1 a15 a14) a0 a5 a6 (Cert.Spec.biasRow a7)) a14 a15) (Cert.Spec.combine true (aggr0 a0 a14 a15) a1 a2 a3 (Cert.Spec.biasRow a4)) a8 a9 (Cert.Spec.biasRow a10)) a17)

/-- A rank-2 index with coordinates `a` and `b`. -/
theorem ix2_of {n0 n1 : Nat} (f : (⟨2, ![n0, n1]⟩ : Shape).Idx) {a : Fin n0} {b : Fin n1} (h0 : f 0 = a) (h1 : f 1 = b) :
    f = ix2 a b := (eq_ix2 f).trans (congrArg₂ ix2 h0 h1)

section Dense
variable {N : Nat}
  (mm : ((⟨2, ![N, 64]⟩ : Shape).Idx → EReal) → (S64x64.Idx → EReal) → (⟨2, ![N, 64]⟩ : Shape).Idx → EReal)
  (bb : (S64.Idx → EReal) → (⟨2, ![N, 64]⟩ : Shape).Idx → EReal)
  (hmm : ∀ a w (r : Fin N) (j : Fin 64), mm a w (ix2 r j) = ∑ k : Fin 64, a (ix2 r k) * w (ix2 k j))
  (hbb : ∀ b (r : Fin N) (j : Fin 64), bb b (ix2 r j) = b (ix1 j))
  (mean x : (⟨2, ![N, 64]⟩ : Shape).Idx → EReal) (wl wr : S64x64.Idx → EReal) (b : S64.Idx → EReal)

include hmm hbb in
/-- Two products with 64x64 weights and a bias broadcast down the rows are a layer's combine, at any row count. -/
theorem layer : addf (F := Ideal) (φ := .f32) (addf (F := Ideal) (φ := .f32) (mm mean wl) (mm x wr)) (bb b)
    = Cert.Spec.combine false mean x wl wr (Cert.Spec.biasRow b) := by
  funext i
  obtain ⟨r, j, rfl⟩ : ∃ (r : Fin N) (j : Fin 64), i = ix2 r j := ⟨i 0, i 1, eq_ix2 i⟩
  show (mm mean wl (ix2 r j) + mm x wr (ix2 r j)) + bb b (ix2 r j) = _
  rw [hmm, hmm, hbb]
  rfl

include hmm hbb in
/-- The same under a maximum with an array that is zero everywhere. -/
theorem layer_relu (z : (⟨2, ![N, 64]⟩ : Shape).Idx → EReal) (hz : ∀ i, z i = 0) :
    maximumf (F := Ideal) (φ := .f32)
        (addf (F := Ideal) (φ := .f32) (addf (F := Ideal) (φ := .f32) (mm mean wl) (mm x wr)) (bb b)) z
      = Cert.Spec.combine true mean x wl wr (Cert.Spec.biasRow b) := by
  funext i
  obtain ⟨r, j, rfl⟩ : ∃ (r : Fin N) (j : Fin 64), i = ix2 r j := ⟨i 0, i 1, eq_ix2 i⟩
  show max ((mm mean wl (ix2 r j) + mm x wr (ix2 r j)) + bb b (ix2 r j)) (z (ix2 r j)) = _
  rw [hmm, hmm, hbb, hz]
  rfl

end Dense

theorem mm19 (a : S30000x64.Idx → EReal) (w : S64x64.Idx → EReal) (r : Fin 30000) (j : Fin 64) :
    val_main_v19 (F := Ideal) a w (ix2 r j) = ∑ k : Fin 64, a (ix2 r k) * w (ix2 k j) :=
  (val_main_v19_apply a w _).trans <| Finset.sum_congr rfl fun k _ =>
    congrArg₂ (· * ·) (congrArg a (ix2_of _ rfl rfl)) (congrArg w (ix2_of _ rfl rfl))

theorem mm44 (a : S100000x64.Idx → EReal) (w : S64x64.Idx → EReal) (r : Fin 100000) (j : Fin 64) :
    val_main_v44 (F := Ideal) a w (ix2 r j) = ∑ k : Fin 64, a (ix2 r k) * w (ix2 k j) :=
  (val_main_v44_apply a w _).trans <| Finset.sum_congr rfl fun k _ =>
    congrArg₂ (· * ·) (congrArg a (ix2_of _ rfl rfl)) (congrArg w (ix2_of _ rfl rfl))

theorem bb22 (b : S64.Idx → EReal) (r : Fin 30000) (j : Fin 64) : val_main_v22 (F := Ideal) b (ix2 r j) = b (ix1 j) := by
  rw [val_main_v22_apply, val_main_v21_apply]
  exact congrArg b (funext fun a => by match a with | ⟨0, _⟩ => rfl)

theorem bb47 (b : S64.Idx → EReal) (r : Fin 100000) (j : Fin 64) : val_main_v47 (F := Ideal) b (ix2 r j) = b (ix1 j) := by
  rw [val_main_v47_apply, val_main_v46_apply]
  exact congrArg b (funext fun a => by match a with | ⟨0, _⟩ => rfl)

theorem zero30k (i : S30000x64.Idx) : val_main_call0_v0 (F := Ideal) i = 0 := by
  rw [val_main_call0_v0_apply]; exact Ideal.ofBits_zero_f32
theorem zero100k (i : S100000x64.Idx) : val_main_call1_v0 (F := Ideal) i = 0 := by
  rw [val_main_call1_v0_apply]; exact Ideal.ofBits_zero_f32

theorem hd_eq (a0 : S100000x64.Idx → EReal) (a1 : S30000x64.Idx → EReal) (a2 a3 : S64x64.Idx → EReal)
    (a4 : S64.Idx → EReal) (a14 a15 : IVec S1500000 32) :
    val_main_v24 (F := Ideal) a0 a1 a2 a3 a4 a14 a15 = Cert.Spec.combine true (aggr0 a0 a14 a15) a1 a2 a3 (Cert.Spec.biasRow a4) :=
  layer_relu _ _ mm19 bb22 (aggr0 a0 a14 a15) a1 a2 a3 a4 _ zero30k

theorem hg_eq (a0 : S100000x64.Idx → EReal) (a1 : S30000x64.Idx → EReal) (a5 a6 : S64x64.Idx → EReal)
    (a7 : S64.Idx → EReal) (a14 a15 : IVec S1500000 32) :
    val_main_v49 (F := Ideal) a0 a1 a5 a6 a7 a14 a15 = Cert.Spec.combine true (aggr1 a1 a15 a14) a0 a5 a6 (Cert.Spec.biasRow a7) :=
  layer_relu _ _ mm44 bb47 (aggr1 a1 a15 a14) a0 a5 a6 a7 _ zero100k

theorem hd2_eq (a0 : S100000x64.Idx → EReal) (a1 : S30000x64.Idx → EReal) (a2 a3 : S64x64.Idx → EReal)
    (a4 : S64.Idx → EReal) (a5 a6 : S64x64.Idx → EReal) (a7 : S64.Idx → EReal) (a8 a9 : S64x64.Idx → EReal)
    (a10 : S64.Idx → EReal) (a14 a15 : IVec S1500000 32) :
    val_main_v73 (F := Ideal) a0 a1 a2 a3 a4 a5 a6 a7 a8 a9 a10 a14 a15 = Cert.Spec.combine false (aggr0 (Cert.Spec.combine true (aggr1 a1 a15 a14) a0 a5 a6 (Cert.Spec.biasRow a7)) a14 a15) (Cert.Spec.combine true (aggr0 a0 a14 a15) a1 a2 a3 (Cert.Spec.biasRow a4)) a8 a9 (Cert.Spec.biasRow a10) :=
  (layer _ _ mm19 bb22 (aggr0 (val_main_v49 (F := Ideal) a0 a1 a5 a6 a7 a14 a15) a14 a15)
      (val_main_v24 (F := Ideal) a0 a1 a2 a3 a4 a14 a15) a8 a9 a10).trans (by rw [hg_eq, hd_eq])

theorem hg2_eq (a0 : S100000x64.Idx → EReal) (a1 : S30000x64.Idx → EReal) (a2 a3 : S64x64.Idx → EReal)
    (a4 : S64.Idx → EReal) (a5 a6 : S64x64.Idx → EReal) (a7 : S64.Idx → EReal) (a11 a12 : S64x64.Idx → EReal)
    (a13 : S64.Idx → EReal) (a14 a15 : IVec S1500000 32) :
    val_main_v97 (F := Ideal) a0 a1 a2 a3 a4 a5 a6 a7 a11 a12 a13 a14 a15 = Cert.Spec.combine false (aggr1 (Cert.Spec.combine true (aggr0 a0 a14 a15) a1 a2 a3 (Cert.Spec.biasRow a4)) a15 a14) (Cert.Spec.combine true (aggr1 a1 a15 a14) a0 a5 a6 (Cert.Spec.biasRow a7)) a11 a12 (Cert.Spec.biasRow a13) :=
  (layer _ _ mm44 bb47 (aggr1 (val_main_v24 (F := Ideal) a0 a1 a2 a3 a4 a14 a15) a15 a14)
      (val_main_v49 (F := Ideal) a0 a1 a5 a6 a7 a14 a15) a11 a12 a13).trans (by rw [hg_eq, hd_eq])

theorem val113_eq (a0 : S100000x64.Idx → EReal) (a1 : S30000x64.Idx → EReal) (a2 a3 : S64x64.Idx → EReal)
    (a4 : S64.Idx → EReal) (a5 a6 : S64x64.Idx → EReal) (a7 : S64.Idx → EReal) (a8 a9 : S64x64.Idx → EReal)
    (a10 : S64.Idx → EReal) (a11 a12 : S64x64.Idx → EReal) (a13 : S64.Idx → EReal)
    (a14 a15 : IVec S1500000 32) (a16 a17 : IVec S500000 32) :
    val_main_v113 (F := Ideal) a0 a1 a2 a3 a4 a5 a6 a7 a8 a9 a10 a11 a12 a13 a14 a15 a16 a17
      = refOut a0 a1 a2 a3 a4 a5 a6 a7 a8 a9 a10 a11 a12 a13 a14 a15 a16 a17 := by
  funext i
  obtain ⟨r, rfl⟩ : ∃ r : Fin 500000, i = ix1 r := ⟨i 0, eq_ix1 i⟩
  rw [val_main_v113_apply]
  have hz : val_main_cst_26 (F := Ideal) (Shape.Idx.first h_S_) = 0 := Ideal.ofBits_zero_f32
  rw [hz, zero_add]
  unfold refOut Cert.Spec.rowdotVec Cert.Spec.rowdotAt
  refine Finset.sum_congr rfl fun k _ => ?_
  rw [ix2_of (idx_main_v113 (ix1 r) k) (a := r) (b := k) rfl rfl, val_main_v112_apply]
  exact congrArg₂ (· * ·) (congrFun (congrArg (take0 · a16) (hg2_eq a0 a1 a2 a3 a4 a5 a6 a7 a11 a12 a13 a14 a15)) _)
    (congrFun (congrArg (take1 · a17) (hd2_eq a0 a1 a2 a3 a4 a5 a6 a7 a8 a9 a10 a14 a15)) _)

theorem out_eq (m : (ℓ : Loc nD τ sig) → Buf (Elt Ideal) ℓ) (c : Dev nD) :
    (Cert.ReferenceIdeal.Value.res_out0 (F := Ideal) m c : S500000.Idx → EReal)
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17)) :=
  (val_main_v113_eq (F := Ideal) m c).trans (val113_eq _ _ _ _ _ _ _ _ _ _ _ _ _ _ _ _ _ _)

end Cert.RefVal

end
-- ==== Proof.Bridge.lean ====
import proofs.«421618_j42769284334197_1_alg».proof.Proof.RefVal
import proofs.«421618_j42769284334197_1_alg».proof.Proof.KI.HostVal

noncomputable section

namespace Cert.Bridge

open Cert.ReferenceIdeal Cert.ReferenceIdeal.Gen Idealize.ShloMosaic Idealize.ShloMosaic.ValueIdx
open Cert.LibCount Cert.LibRowGather

/-- The two programs' aggregations differ in the layout of the count alone. -/
theorem aggr0_eq (x : S100000x64.Idx → EReal) (src dst : IVec S1500000 32) :
    Cert.KernelIdeal.Val.aggr0 x src dst = Cert.RefVal.aggr0 x src dst := by
  unfold Cert.KernelIdeal.Val.aggr0 Cert.RefVal.aggr0
  exact meanV_eq_meanC _ _ _ _ _

theorem aggr1_eq (x : S30000x64.Idx → EReal) (src dst : IVec S1500000 32) :
    Cert.KernelIdeal.Val.aggr1 x src dst = Cert.RefVal.aggr1 x src dst := by
  unfold Cert.KernelIdeal.Val.aggr1 Cert.RefVal.aggr1
  exact meanV_eq_meanC _ _ _ _ _

/-- With the labels in range the filled take is the plain one. -/
theorem take0_eq (x : S100000x64.Idx → EReal) (idx : IVec S500000 32)
    (h : ∀ e : Fin 500000, 0 ≤ (idx (ix1 e)).toInt ∧ (idx (ix1 e)).toInt < 100000) :
    Cert.KernelIdeal.Val.take0 x idx = Cert.RefVal.take0 x idx :=
  takeFill_eq (N := 100000) _ _ _ h (by decide) (by decide) _ _

theorem take1_eq (x : S30000x64.Idx → EReal) (idx : IVec S500000 32)
    (h : ∀ e : Fin 500000, 0 ≤ (idx (ix1 e)).toInt ∧ (idx (ix1 e)).toInt < 30000) :
    Cert.KernelIdeal.Val.take1 x idx = Cert.RefVal.take1 x idx :=
  takeFill_eq (N := 30000) _ _ _ h (by decide) (by decide) _ _

open Cert.KernelIdeal.Val in
def kerOut (a0 : S100000x64.Idx → EReal) (a1 : S30000x64.Idx → EReal) (a2 a3 : S64x64.Idx → EReal)
    (a4 : S64.Idx → EReal) (a5 a6 : S64x64.Idx → EReal) (a7 : S64.Idx → EReal) (a8 a9 : S64x64.Idx → EReal)
    (a10 : S64.Idx → EReal) (a11 a12 : S64x64.Idx → EReal) (a13 : S64.Idx → EReal)
    (a14 a15 : IVec S1500000 32) (a16 a17 : IVec S500000 32) : S500000.Idx → EReal :=
  Cert.Spec.rowdotVec (take0 (Cert.Spec.combine false (aggr1 (Cert.Spec.combine true (aggr0 a0 a14 a15) a1 a2 a3 (Cert.Spec.biasRow a4)) a15 a14) (Cert.Spec.combine true (aggr1 a1 a15 a14) a0 a5 a6 (Cert.Spec.biasRow a7)) a11 a12 (Cert.Spec.biasRow a13)) a16) (take1 (Cert.Spec.combine false (aggr0 (Cert.Spec.combine true (aggr1 a1 a15 a14) a0 a5 a6 (Cert.Spec.biasRow a7)) a14 a15) (Cert.Spec.combine true (aggr0 a0 a14 a15) a1 a2 a3 (Cert.Spec.biasRow a4)) a8 a9 (Cert.Spec.biasRow a10)) a17)

theorem kerOut_eq_refOut (a0 : S100000x64.Idx → EReal) (a1 : S30000x64.Idx → EReal) (a2 a3 : S64x64.Idx → EReal)
    (a4 : S64.Idx → EReal) (a5 a6 : S64x64.Idx → EReal) (a7 : S64.Idx → EReal) (a8 a9 : S64x64.Idx → EReal)
    (a10 : S64.Idx → EReal) (a11 a12 : S64x64.Idx → EReal) (a13 : S64.Idx → EReal)
    (a14 a15 : IVec S1500000 32) (a16 a17 : IVec S500000 32)
    (h16 : ∀ e : Fin 500000, 0 ≤ (a16 (ix1 e)).toInt ∧ (a16 (ix1 e)).toInt < 100000)
    (h17 : ∀ e : Fin 500000, 0 ≤ (a17 (ix1 e)).toInt ∧ (a17 (ix1 e)).toInt < 30000) :
    kerOut a0 a1 a2 a3 a4 a5 a6 a7 a8 a9 a10 a11 a12 a13 a14 a15 a16 a17
      = Cert.RefVal.refOut a0 a1 a2 a3 a4 a5 a6 a7 a8 a9 a10 a11 a12 a13 a14 a15 a16 a17 := by
  unfold kerOut Cert.RefVal.refOut
  rw [aggr0_eq a0, aggr1_eq a1, aggr0_eq, aggr1_eq, take0_eq _ _ h16, take1_eq _ _ h17]

end Cert.Bridge

end
-- ==== Proof.KI.KernelValue.lean ====
import proofs.«421618_j42769284334197_1_alg».proof.Proof.KI.RunData
import proofs.«421618_j42769284334197_1_alg».proof.Proof.KI.Reg4
import proofs.«421618_j42769284334197_1_alg».proof.Proof.KI.HostVal
import proofs.«421618_j42769284334197_1_alg».proof.Proof.KI.SageVal0
import proofs.«421618_j42769284334197_1_alg».proof.Proof.KI.SageVal1
import proofs.«421618_j42769284334197_1_alg».proof.Proof.KI.SageVal2
import proofs.«421618_j42769284334197_1_alg».proof.Proof.KI.SageVal3
import proofs.«421618_j42769284334197_1_alg».proof.Proof.KI.DotVal4
import proofs.«421618_j42769284334197_1_alg».proof.Proof.Bridge
import proofs.«421618_j42769284334197_1_alg».proof.Proof.Spec
import Idealize.ShloMosaic.Lib.Pipeline.Value
import Idealize.ShloMosaic.Lib.Pipeline.Cells
import Idealize.ShloMosaic.Lib.ValueIdx
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (c : Dev nD)

theorem combine_congr (relu : Bool) {N : Nat} {mean mean' x x' : (⟨2, ![N, 64]⟩ : Shape).Idx → EReal}
    {wl wl' wr wr' : (⟨2, ![64, 64]⟩ : Shape).Idx → EReal} {b b' : (⟨2, ![1, 64]⟩ : Shape).Idx → EReal}
    (h0 : mean = mean') (h1 : x = x') (h2 : wl = wl') (h3 : wr = wr') (h4 : b = b') :
    Cert.Spec.combine relu mean x wl wr b = Cert.Spec.combine relu mean' x' wl' wr' b' := by
  subst h0 h1 h2 h3 h4; rfl

theorem hd_eq :
    (Fr.o2 m c : S30000x64.Idx → EReal)
      = Cert.Spec.combine true
          (aggr0 (m ((c : Thread nD τ).loc main_arg0)) (m ((c : Thread nD τ).loc main_arg14)) (m ((c : Thread nD τ).loc main_arg15)))
          (m ((c : Thread nD τ).loc main_arg1)) (m ((c : Thread nD τ).loc main_arg2)) (m ((c : Thread nD τ).loc main_arg3))
          (Cert.Spec.biasRow (m ((c : Thread nD τ).loc main_arg4))) :=
  (Fr.o2_def m c).trans <| (final0 (Fr.E0 m) c).trans
    (combine_congr true (V1_v18 m c) (keep1 m c main_arg1) (keep1 m c main_arg2) (keep1 m c main_arg3) (V1_v19 m c))

theorem hg_eq :
    (Fr.o4 m c : S100000x64.Idx → EReal)
      = Cert.Spec.combine true
          (aggr1 (m ((c : Thread nD τ).loc main_arg1)) (m ((c : Thread nD τ).loc main_arg15)) (m ((c : Thread nD τ).loc main_arg14)))
          (m ((c : Thread nD τ).loc main_arg0)) (m ((c : Thread nD τ).loc main_arg5)) (m ((c : Thread nD τ).loc main_arg6))
          (Cert.Spec.biasRow (m ((c : Thread nD τ).loc main_arg7))) :=
  (Fr.o4_def m c).trans <| (final1 (Fr.E1 m) c).trans
    (combine_congr true (V3_v39 m (Fr.outs2 m) c) (keep3 m (Fr.outs2 m) c main_arg0) (keep3 m (Fr.outs2 m) c main_arg5) (keep3 m (Fr.outs2 m) c main_arg6)
      (V3_v40 m (Fr.outs2 m) c))

theorem hd2_eq :
    (Fr.o6 m c : S30000x64.Idx → EReal)
      = Cert.Spec.combine false
          (aggr0 (Fr.o4 m c) (m ((c : Thread nD τ).loc main_arg14)) (m ((c : Thread nD τ).loc main_arg15)))
          (Fr.o2 m c) (m ((c : Thread nD τ).loc main_arg8)) (m ((c : Thread nD τ).loc main_arg9))
          (Cert.Spec.biasRow (m ((c : Thread nD τ).loc main_arg10))) :=
  (Fr.o6_def m c).trans <| (final2 (Fr.E2 m) c).trans
    (combine_congr false
      ((V5_v60 m (Fr.outs4 m) c).trans (congrArg (fun z => aggr0 z _ _) (Fr.outs4_4 m c)))
      ((V5_v20 m (Fr.outs4 m) c).trans ((Fr.outs4_2 m main_v20 c).trans (Fr.outs2_2 m c)))
      (keep5 m (Fr.outs4 m) c main_arg8) (keep5 m (Fr.outs4 m) c main_arg9) (V5_v61 m (Fr.outs4 m) c))

theorem hg2_eq :
    (Fr.o8 m c : S100000x64.Idx → EReal)
      = Cert.Spec.combine false
          (aggr1 (Fr.o2 m c) (m ((c : Thread nD τ).loc main_arg15)) (m ((c : Thread nD τ).loc main_arg14)))
          (Fr.o4 m c) (m ((c : Thread nD τ).loc main_arg11)) (m ((c : Thread nD τ).loc main_arg12))
          (Cert.Spec.biasRow (m ((c : Thread nD τ).loc main_arg13))) :=
  (Fr.o8_def m c).trans <| (final3 (Fr.E3 m) c).trans
    (combine_congr false
      ((V7_v81 m (Fr.outs6 m) c).trans (congrArg (fun z => aggr1 z _ _) ((Fr.outs6_2 m main_v20 c).trans (Fr.outs2_2 m c))))
      ((V7_v41 m (Fr.outs6 m) c).trans ((Fr.outs6_4 m main_v41 c).trans (Fr.outs4_4 m c)))
      (keep7 m (Fr.outs6 m) c main_arg11) (keep7 m (Fr.outs6 m) c main_arg12) (V7_v82 m (Fr.outs6 m) c))

theorem rowdot_col (g d : S500000x64.Idx → EReal) :
    Cert.Spec.rowdotVec g d = fun i => Cert.Spec.rowdotCol g d (ix2 (i 0) (0 : Fin 1)) := rfl

theorem col_eq (o : Buf (Elt Ideal) ((c : Thread nD τ).loc main_v86)) (ho : Fr.Left4 (F := Ideal) m (fun _ => false) c o) :
    (o : S500000x1.Idx → EReal)
      = Cert.Spec.rowdotCol (take0 (Fr.o8 m c) (m ((c : Thread nD τ).loc main_arg16))) (take1 (Fr.o6 m c) (m ((c : Thread nD τ).loc main_arg17))) :=
  (((Fr.dat4 (Fr.E4 m) c).toRForget_arrAt_iff (fgt := fun _ => false) (w := 2) rfl cfg4.N o).mp ho).trans <|
    (final4 (Fr.E4 m) c).trans <|
      congrArg₂ Cert.Spec.rowdotCol
        ((V10_v84 m (Fr.outs8 m) c).trans (congrArg (fun z => take0 z _) (Fr.outs8_8 m c)))
        ((V10_v85 m (Fr.outs8 m) c).trans (congrArg (fun z => take1 z _) ((Fr.outs8_6 m main_v62 c).trans (Fr.outs6_6 m c))))

theorem kernel_value (o : Buf (Elt Ideal) ((c : Thread nD τ).loc main_v86)) (ho : Fr.Left4 (F := Ideal) m (fun _ => false) c o) :
    (StableHlo.after hostOps5 (Fr.upd4 m c o) main_v87 : S500000.Idx → EReal)
      = Cert.Bridge.kerOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) := by
  refine (after5_v87 (Fr.upd4 m c o)).trans ?_
  show (fun i : S500000.Idx => (Function.update (V10 m (Fr.outs8 m) c) main_v86 o main_v86 : S500000x1.Idx → EReal) (ix2 (i 0) (0 : Fin 1))) = _
  rw [Function.update_self, col_eq m c o ho, ← rowdot_col]
  unfold Cert.Bridge.kerOut
  rw [hg2_eq, hd2_eq, hd_eq, hg_eq]

end Cert.KernelIdeal.Val

end
-- ==== Proof.PreRange.lean ====
import proofs.«421618_j42769284334197_1_alg».proof.Pre_finite_inputs
import Idealize.ShloMosaic.Lib.ValueIdx
import Idealize.ShloMosaic.Lib.StableHlo.Predicate
import Idealize.ShloMosaic.Lib.ReduceAll

noncomputable section

namespace Cert.PreRange

open Idealize.ShloMosaic Idealize.ShloMosaic.ValueIdx

instance : Subsingleton (⟨0, ![]⟩ : Shape).Idx := ⟨fun _ _ => funext fun d => d.elim0⟩

theorem toInt_nonneg_of_sge {x : BitVec 32} (h : IntOp.cmpi .sge x 0#32 = 1#1) : 0 ≤ x.toInt := by
  have hb : (0#32 : BitVec 32).sle x = true := (StableHlo.Predicate.ofBool_eq_one_iff _).1 h
  have h0 : (0#32 : BitVec 32).toInt = 0 := by decide
  simp only [BitVec.sle, decide_eq_true_eq, h0] at hb
  exact hb

theorem toInt_lt_of_slt {x : BitVec 32} (K : Nat) (hK : K < 2 ^ 31)
    (h : IntOp.cmpi .slt x (BitVec.ofNat 32 K) = 1#1) : x.toInt < (K : Int) := by
  have hb : x.slt (BitVec.ofNat 32 K) = true := (StableHlo.Predicate.ofBool_eq_one_iff _).1 h
  simp only [BitVec.slt, decide_eq_true_eq, StableHlo.Predicate.toInt_ofNat_small K hK] at hb
  exact hb

theorem range_of_all {n : Nat} (K : Nat) (hK : K < 2 ^ 31)
    (hb : (⟨0, ![]⟩ : Shape).BroadcastsInDim ⟨1, ![n]⟩ ![])
    (hred : (⟨1, ![n]⟩ : Shape).ReducesTo [0] ⟨0, ![]⟩) (h0 : 0 < (⟨0, ![]⟩ : Shape).numel)
    (a : IVec ⟨1, ![n]⟩ 32) (j : (⟨0, ![]⟩ : Shape).Idx)
    (h : Host.reduce IntOp.andi
        (andi (cmpi .sge a (broadcastInDim ⟨1, ![n]⟩ ![] hb (constantI ⟨0, ![]⟩ 32 0#32)))
          (cmpi .slt a (broadcastInDim ⟨1, ![n]⟩ ![] hb (constantI ⟨0, ![]⟩ 32 (BitVec.ofNat 32 K)))))
        (constantI ⟨0, ![]⟩ 1 1#1) hred h0 j = 1#1) (e : Fin n) :
    0 ≤ (a (ix1 e)).toInt ∧ (a (ix1 e)).toInt < (K : Int) := by
  have he := Host.reduce_andi_all _ _ hred h0 j h (ix1 e)
  have he' : IntOp.andi (IntOp.cmpi .sge (a (ix1 e)) 0#32) (IntOp.cmpi .slt (a (ix1 e)) (BitVec.ofNat 32 K)) = 1#1 := he
  obtain ⟨hge, hlt⟩ := IntOp.andi_eq_one.1 he'
  exact ⟨toInt_nonneg_of_sge hge, toInt_lt_of_slt K hK hlt⟩

open Cert.Pre_finite_inputs in
theorem ranges_of_part4 {F : FTy → Type} [FloatOps F] [hP : Cert.Pre_finite_inputs.Facts]
    (a16 a17 : IVec S500000 32) (v63 v67 : IVec S_ 1) (j : S_.Idx)
    (h : fn_part4 (F := F) a16 a17 v63 v67 j = 1#1) :
    (∀ e : Fin 500000, 0 ≤ (a16 (ix1 e)).toInt ∧ (a16 (ix1 e)).toInt < 100000) ∧
      (∀ e : Fin 500000, 0 ≤ (a17 (ix1 e)).toInt ∧ (a17 (ix1 e)).toInt < 30000) := by
  unfold fn_part4 at h
  obtain ⟨h75, h81⟩ := IntOp.andi_eq_one.1 h
  obtain ⟨_, h74⟩ := IntOp.andi_eq_one.1 h75
  exact ⟨fun e => range_of_all 100000 (by norm_num) _ _ _ a16 j h74 e,
    fun e => range_of_all 30000 (by norm_num) _ _ _ a17 j h81 e⟩

open Cert.Pre_finite_inputs in
theorem ranges_of_pre {F : FTy → Type} [FloatOps F] [hP : Cert.Pre_finite_inputs.Facts]
    (a0 : FVec F S100000x64 .f32) (a1 : FVec F S30000x64 .f32) (a2 a3 : FVec F S64x64 .f32) (a4 : FVec F S64 .f32)
    (a5 a6 : FVec F S64x64 .f32) (a7 : FVec F S64 .f32) (a8 a9 : FVec F S64x64 .f32) (a10 : FVec F S64 .f32)
    (a11 a12 : FVec F S64x64 .f32) (a13 : FVec F S64 .f32) (a14 a15 : IVec S1500000 32) (a16 a17 : IVec S500000 32)
    (h : Cert.Pre_finite_inputs.fn (F := F) a0 a1 a2 a3 a4 a5 a6 a7 a8 a9 a10 a11 a12 a13 a14 a15 a16 a17
      = (fun _ => 1#1)) :
    (∀ e : Fin 500000, 0 ≤ (a16 (ix1 e)).toInt ∧ (a16 (ix1 e)).toInt < 100000) ∧
      (∀ e : Fin 500000, 0 ≤ (a17 (ix1 e)).toInt ∧ (a17 (ix1 e)).toInt < 30000) := by
  have h4 : fn_part4 (F := F) a16 a17 _ _ ix0 = 1#1 := congrFun h ix0
  exact ranges_of_part4 a16 a17 _ _ ix0 h4

end Cert.PreRange

end
-- ==== Proof.Claims.lean ====
import proofs.«421618_j42769284334197_1_alg».proof.Defs
import proofs.«421618_j42769284334197_1_alg».proof.Proof.K.Run
import proofs.«421618_j42769284334197_1_alg».proof.Proof.KI.Run
import proofs.«421618_j42769284334197_1_alg».proof.Proof.KI.DotVal4
import proofs.«421618_j42769284334197_1_alg».proof.Proof.KI.KernelValue
import proofs.«421618_j42769284334197_1_alg».proof.Proof.Bridge
import proofs.«421618_j42769284334197_1_alg».proof.Proof.RefVal
import proofs.«421618_j42769284334197_1_alg».proof.Proof.PreRange
import proofs.«421618_j42769284334197_1_alg».proof.Proof.Gen.ReferenceIdeal.Run
import proofs.«421618_j42769284334197_1_alg».proof.Proof.Gen.Pre_finite_inputs

noncomputable section

open Idealize.ShloMosaic Idealize.ShloMosaic.TcCoe Idealize.SL.Sem

namespace Cert.Proof.Claims

theorem frame_k : Cert.frame_Kernel := fun m ρ _ =>
  (θ_run (Cert.Kernel.defs (F := Bits)) _ _).mono
    (fun r h c =>
      ⟨h c _ (by decide), h c _ (by decide), h c _ (by decide), h c _ (by decide), h c _ (by decide), h c _ (by decide),
        h c _ (by decide), h c _ (by decide), h c _ (by decide), h c _ (by decide), h c _ (by decide), h c _ (by decide),
        h c _ (by decide), h c _ (by decide), h c _ (by decide), h c _ (by decide), h c _ (by decide), h c _ (by decide)⟩)
    (Cert.Kernel.Fr.frame_all (F := Bits) m ρ Cert.Kernel.Fr.fgt4
      (fun c => Cert.Kernel.Fr.body_obligation4 (Cert.Kernel.Fr.E4 m) c) rfl rfl)

theorem frame_ki : Cert.frame_KernelIdeal := fun m ρ _ =>
  (θ_run (Cert.KernelIdeal.defs (F := Ideal)) _ _).mono
    (fun r h c =>
      ⟨h c _ (by decide), h c _ (by decide), h c _ (by decide), h c _ (by decide), h c _ (by decide), h c _ (by decide),
        h c _ (by decide), h c _ (by decide), h c _ (by decide), h c _ (by decide), h c _ (by decide), h c _ (by decide),
        h c _ (by decide), h c _ (by decide), h c _ (by decide), h c _ (by decide), h c _ (by decide), h c _ (by decide)⟩)
    (Cert.KernelIdeal.Fr.frame_all (F := Ideal) m ρ Cert.KernelIdeal.Fr.fgt4
      (fun c => Cert.KernelIdeal.Fr.body_obligation4 (Cert.KernelIdeal.Fr.E4 m) c) rfl rfl)

theorem frame_ri : Cert.frame_ReferenceIdeal := fun m ρ _ =>
  (θ_run (Cert.ReferenceIdeal.defs (F := Ideal)) _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.Bridge.kerOut
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  ·
    refine (θ_run (Cert.KernelIdeal.defs (F := Ideal)) _ _).mono (fun r h c => ?_)
      (Cert.KernelIdeal.Fr.run_all (F := Ideal) m ρ (fun _ => false)
        (fun c => Cert.KernelIdeal.Val.body_obligation4V (Cert.KernelIdeal.Fr.E4 m) c) rfl rfl)
    obtain ⟨o, ho, hb⟩ := h c
    have harg : ∀ a ∈ Cert.KernelIdeal.Fr.argRefs,
        r.2.mem ((c.tc : Thread Cert.KernelIdeal.nD Cert.KernelIdeal.τ).loc a) = m ((c.tc : Thread Cert.KernelIdeal.nD Cert.KernelIdeal.τ).loc a) := fun a ha => by
      have hs : ¬ (Proc.devRef .tc a : DevRef Cert.KernelIdeal.τ Cert.KernelIdeal.sig).isScoped := by
        revert a; decide
      exact (hb _ (Cert.KernelIdeal.Fr.mem_uc a hs)).trans (Cert.KernelIdeal.Fr.last_arg m c o a ha)
    exact ⟨(hb _ (Cert.KernelIdeal.Fr.mem_uc Cert.KernelIdeal.main_v87 (by decide))).trans (Cert.KernelIdeal.Val.kernel_value m c o ho),
      harg _ (by decide), harg _ (by decide), harg _ (by decide), harg _ (by decide), harg _ (by decide), harg _ (by decide),
      harg _ (by decide), harg _ (by decide), harg _ (by decide), harg _ (by decide), harg _ (by decide), harg _ (by decide),
      harg _ (by decide), harg _ (by decide), harg _ (by decide), harg _ (by decide), harg _ (by decide), harg _ (by decide)⟩
  ·
    refine (θ_run (Cert.ReferenceIdeal.defs (F := Ideal)) _ _).mono (fun r h c => ⟨(h c).1.trans ?_, (h c).2⟩)
      (Cert.ReferenceIdeal.Value.run (F := Ideal) m' ρ')
    obtain ⟨h16, h17⟩ := Cert.PreRange.ranges_of_pre (F := Ideal) _ _ _ _ _ _ _ _ _ _ _ _ _ _ _ _ _ _ (hpre c)
    obtain ⟨e0, e1, e2, e3, e4, e5, e6, e7, e8, e9, e10, e11, e12, e13, e14, e15, e16, e17⟩ := hagree c
    refine (Cert.RefVal.out_eq m' c).trans ?_
    rw [e0, e1, e2, e3, e4, e5, e6, e7, e8, e9, e10, e11, e12, e13, e14, e15, e16, e17]
    exact (Cert.Bridge.kerOut_eq_refOut _ _ _ _ _ _ _ _ _ _ _ _ _ _ _ _ _ _ h16 h17).symm

end Cert.Proof.Claims

end
-- ==== Proof.lean ====
/-
  Two layers of neighbour averaging and combining over a bipartite graph, then row inner products at the label edges:
  the kernel program against its reference. Entry by entry the two sides are the same sums in the same association.
-/
import proofs.«421618_j42769284334197_1_alg».proof.Defs
import proofs.«421618_j42769284334197_1_alg».proof.Proof.Gen.Kernel
import proofs.«421618_j42769284334197_1_alg».proof.Proof.Gen.KernelIdeal
import proofs.«421618_j42769284334197_1_alg».proof.Proof.Gen.ReferenceIdeal
import proofs.«421618_j42769284334197_1_alg».proof.Proof.Gen.Pre_finite_inputs
import proofs.«421618_j42769284334197_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
